-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128 .f32) (main_arg10 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S256 .f32) (main_arg5 : FVec F S256 .f32) (main_arg6 : FVec F S256 .f32) (main_arg7 : FVec F S256x128 .f32) (main_arg8 : FVec F S128 .f32) (main_arg9 : FVec F S128 .f32) (main_arg10 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x128 .f32) (main_arg1 : FVec F S640000x128 .f32) (main_arg2 : FVec F S1 .f32) (main_arg3 : FVec F S128x256 .f32) (main_arg4 : FVec F S256 .f32) (main_arg5 : FVec F S256 .f32) (main_arg6 : FVec F S256 .f32) (main_arg7 : FVec F S256x128 .f32) (main_arg8 : FVec F S128 .f32) (main_arg9 : FVec F S128 .f32) (main_arg10 : FVec F S128 .f32) (main_arg11 : IVec S640000 32) (main_arg12 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_v13 main_v16
-- ==== Kernel.lean ====
abbrev S10000x128 : Shape := ⟨2, ![10000, 128]⟩
abbrev S640000x128 : Shape := ⟨2, ![640000, 128]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S10000 : Shape := ⟨1, ![10000]⟩
abbrev S10000x1 : Shape := ⟨2, ![10000, 1]⟩
abbrev S1x1 : Shape := ⟨2, ![1, 1]⟩
abbrev S1x256 : Shape := ⟨2, ![1, 256]⟩
abbrev S1000x128 : Shape := ⟨2, ![1000, 128]⟩
abbrev S1000x1 : Shape := ⟨2, ![1000, 1]⟩
abbrev S1000x256 : Shape := ⟨2, ![1000, 256]⟩
abbrev S1x128 : Shape := ⟨2, ![1, 128]⟩

abbrev nBuf : Space → Nat
  | .hbm => 62
  | .vmem => 39
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S1, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S10000x128, .f32⟩
  | .hbm, ⟨25, _⟩ => ⟨S640000x1, .i32⟩
  | .hbm, ⟨26, _⟩ => ⟨S10000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S10000, .f32⟩
  | .hbm, ⟨31, _⟩ => ⟨S640000x1, .i32⟩
  | .hbm, ⟨32, _⟩ => ⟨S10000, .f32⟩
  | .hbm, ⟨33, _⟩ => ⟨S10000x1, .f32⟩
  | .hbm, ⟨34, _⟩ => ⟨S1x1, .f32⟩
  | .hbm, ⟨35, _⟩ => ⟨S10000x128, .f32⟩
  | .hbm, ⟨36, _⟩ => ⟨S1x256, .f32⟩
  | .hbm, ⟨37, _⟩ => ⟨S1x256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S10000x128, .f32⟩
  | .hbm, ⟨49, _⟩ => ⟨S1x128, .f32⟩
  | .hbm, ⟨50, _⟩ => ⟨S1x128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x1, .f32⟩
  | .local _ .vmem, ⟨5, _⟩ => ⟨S1000x1, .f32⟩
  | .local _ .vmem, ⟨6, _⟩ => ⟨S1x1, .f32⟩
  | .local _ .vmem, ⟨7, _⟩ => ⟨S128x256, .f32⟩
  | .local _ .vmem, ⟨8, _⟩ => ⟨S256, .f32⟩
  | .local _ .vmem, ⟨9, _⟩ => ⟨S1000x128, .f32⟩
  | .local _ .vmem, ⟨10, _⟩ => ⟨S1000x128, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1000x128, .f32⟩
  | .local _ .vmem, ⟨16, _⟩ => ⟨S1000x128, .f32⟩
  | .local _ .vmem, ⟨17, _⟩ => ⟨S128x256, .f32⟩
  | .local _ .vmem, ⟨18, _⟩ => ⟨S256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256, .f32⟩
  | .local _ .vmem, ⟨23, _⟩ => ⟨S256x128, .f32⟩
  | .local _ .vmem, ⟨24, _⟩ => ⟨S128, .f32⟩
  | .local _ .vmem, ⟨25, _⟩ => ⟨S1000x128, .f32⟩
  | .local _ .vmem, ⟨26, _⟩ => ⟨S1000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1000x128, .f32⟩
  | .local _ .vmem, ⟨32, _⟩ => ⟨S1000x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S1000x128, .f32⟩
  | .local _ .vmem, ⟨38, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg11_0 : Ref sig .tc := ⟨.vmem, 28, rfl⟩
abbrev cc1_scratch0 : Ref sig .tc := ⟨.vmem, 29, rfl⟩
abbrev cc1_scratch1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc1_sem10_0 : DmaSem sig := 25
abbrev cc1_sem11_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v43 : BitVec 1 := Scalar.cmpi .eq arg0 c9_i32
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v60 : BitVec 1 := Scalar.cmpi .eq arg0 c9_i32
  let v61 : BitVec 32 := Scalar.extui v60
  let c0_i32_27 : BitVec 32 := 0#32
  let v62 : BitVec 1 := Scalar.cmpi .ne v61 c0_i32_27
  v62

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  shapeCasts_S1_S1x1 : S1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x128 : S1x1.Broadcasts S1000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  reduces_S1000x256_S256 : S1000x256.Reduces [0] S256
  shapeCasts_S1x256_S256 : S1x256.ShapeCasts S256
  bcast_S_S256 : S_.BroadcastsInDim S256 (![] : Fin 0 → Fin S256.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S256_S256 : S256.ShapeCasts S256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  reduces_S1000x128_S128 : S1000x128.Reduces [0] S128
  shapeCasts_S1x128_S128 : S1x128.ShapeCasts S128
  bcast_S_S128 : S_.BroadcastsInDim S128 (![] : Fin 0 → Fin S128.rank)
  shapeCasts_S128_S128 : S128.ShapeCasts S128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S10000x128.size a
  hwx0_6 : ∀ i : grid0.Coords, EltTy.bits .f32 = 32 ∨ (Rect.block (s := S10000x128) S1000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S10000x128.size a
  hwx1_9 : ∀ i : grid1.Coords, EltTy.bits .f32 = 32 ∨ (Rect.block (s := S10000x128) S1000x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S1000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S1x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17_2) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v17_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26_0) S1000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v26_1) S1x128.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v26_2) S1x128.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v26_0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S1 : Shape := ⟨1, ![1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S1, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S10000x128, .f32⟩
  | .hbm, ⟨25, _⟩ => ⟨S640000x1, .i32⟩
  | .hbm, ⟨26, _⟩ => ⟨S10000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S10000, .f32⟩
  | .hbm, ⟨31, _⟩ => ⟨S640000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x256, .f32⟩
  | .hbm, ⟨46, _⟩ => ⟨S1x256, .f32⟩
  | .hbm, ⟨47, _⟩ => ⟨S10000x256, .f32⟩
  | .hbm, ⟨48, _⟩ => ⟨S10000x256, .f32⟩
  | .hbm, ⟨49, _⟩ => ⟨S_, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S10000x256, .f32⟩
  | .hbm, ⟨56, _⟩ => ⟨S10000x256, .f32⟩
  | .hbm, ⟨57, _⟩ => ⟨S10000x256, .f32⟩
  | .hbm, ⟨58, _⟩ => ⟨S_, .f32⟩
  | .hbm, ⟨59, _⟩ => ⟨S256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S10000x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | .hbm, ⟨76, _⟩ => ⟨S1x256, .f32⟩
  | .hbm, ⟨77, _⟩ => ⟨S10000x256, .f32⟩
  | .hbm, ⟨78, _⟩ => ⟨S10000x256, .f32⟩
  | .hbm, ⟨79, _⟩ => ⟨S_, .f32⟩
  | .hbm, ⟨80, _⟩ => ⟨S10000x256, .f32⟩
  | .hbm, ⟨81, _⟩ => ⟨S10000x256, .f32⟩
  | .hbm, ⟨82, _⟩ => ⟨S10000x128, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S10000x128, .f32⟩
  | .hbm, ⟨93, _⟩ => ⟨S10000x128, .f32⟩
  | .hbm, ⟨94, _⟩ => ⟨S10000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S10000x128, .f32⟩
  | .hbm, ⟨102, _⟩ => ⟨S10000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S10000x128, .f32⟩
  | .hbm, ⟨109, _⟩ => ⟨S10000x128, .f32⟩
  | .hbm, ⟨110, _⟩ => ⟨S1x128, .f32⟩
  | .hbm, ⟨111, _⟩ => ⟨S10000x128, .f32⟩
  | .hbm, ⟨112, _⟩ => ⟨S10000x128, .f32⟩
  | .hbm, ⟨113, _⟩ => ⟨S1x128, .f32⟩
  | .hbm, ⟨114, _⟩ => ⟨S10000x128, .f32⟩
  | .hbm, ⟨115, _⟩ => ⟨S10000x128, .f32⟩
  | .hbm, ⟨116, _⟩ => ⟨S_, .f32⟩
  | .hbm, ⟨117, _⟩ => ⟨S10000x128, .f32⟩
  | .hbm, ⟨118, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_cst : Ref sig .tc := ⟨.hbm, 79, rfl⟩
abbrev main_call0_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call1_cst : Ref sig .tc := ⟨.hbm, 116, rfl⟩
abbrev main_call1_v0 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S1_S_ : S1.ShapeCasts S_
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  bcast_S_S128 : S_.BroadcastsInDim S128 (![] : Fin 0 → Fin S128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.PointOuts.lean ====
import Idealize.ShloMosaic.PureOps.Values

namespace Cert

open Idealize.ShloMosaic

/-- What one grid point of a region that adds up column totals leaves: the output tile, the two column-total outputs
    (written at the last point only), and the two running totals it hands to the next point. -/
structure PointOuts (F : FTy → Type) (S T : Shape) where
  tile : Vec F S .f32
  sumOut : Vec F T .f32
  sqOut : Vec F T .f32
  sum : Vec F T .f32
  sq : Vec F T .f32

end Cert
-- ==== Proof.Kernel.R0Runs.lean ====
import proofs.«406289_j13400297963801_3_alg».proof.Proof.Gen.Kernel.Launch
import proofs.«406289_j13400297963801_3_alg».proof.Proof.Gen.Kernel.Skeleton
import proofs.«406289_j13400297963801_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 9 :=
  (by decide +kernel : ∀ t : Fin grid0.N, cond0_1 (grid0.coords t) ↔ t.val = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel

theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel

theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel

theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel

theorem liveAt0_8_C : ∀ t : Fin cfg0.N, ¬cond0_0 (grid0.coords t) → cond0_1 (grid0.coords t) → cfg0.idle 8 (grid0.coords t) = false := by decide +kernel

abbrev VO0_6 : View sig .tc .vmem S1000x128 .f32 := (Memref.whole cc0_stg6_0 : Memref sig .tc .vmem S1000x128 .f32).view
abbrev VO0_7 : View sig .tc .vmem S1x256 .f32 := (Memref.whole cc0_stg7_0 : Memref sig .tc .vmem S1x256 .f32).view
abbrev VO0_8 : View sig .tc .vmem S1x256 .f32 := (Memref.whole cc0_stg8_0 : Memref sig .tc .vmem S1x256 .f32).view

abbrev ms0_0 (t : Fin cfg0.N) : Memref sig .tc .vmem S1000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)

abbrev scM0_0 : Memref sig .tc .vmem S1x256 .f32 := Memref.whole cc0_scratch0
abbrev scM0_1 : Memref sig .tc .vmem S1x256 .f32 := Memref.whole cc0_scratch1

abbrev VS0_0 : View sig .tc .vmem S1x256 .f32 := scM0_0.view
abbrev VS0_1 : View sig .tc .vmem S1x256 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Fr

end
-- ==== Proof.Kernel.R0RunA.lean ====
import proofs.«406289_j13400297963801_3_alg».proof.Proof.Kernel.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S1000x128 .f32) (x1 : Vec F S1000x128 .f32) (x2 : Vec F S1000x1 .f32) (x3 : Vec F S1x1 .f32) (x4 : Vec F S128x256 .f32) (x5 : Vec F S256 .f32) :
    Σ' (L6 : List (View.Piece (Elt F) S1000x128 .f32)) (L7 : List (View.Piece (Elt F) S1x256 .f32)) (L8 : List (View.Piece (Elt F) S1x256 .f32)) (LS0 : List (View.Piece (Elt F) S1x256 .f32)), { LS1 : List (View.Piece (Elt F) S1x256 .f32) //
      ∀ (xi7 : Vec F S1x256 .f32) (xi8 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__stats1_kernel_eq_skeleton]; unfold cc0__stats1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Fr

end
-- ==== Proof.Kernel.R0RunB.lean ====
import proofs.«406289_j13400297963801_3_alg».proof.Proof.Kernel.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32) :
    Σ' (L6 : List (View.Piece (Elt F) S1000x128 .f32)) (L7 : List (View.Piece (Elt F) S1x256 .f32)) (L8 : List (View.Piece (Elt F) S1x256 .f32)) (LS0 : List (View.Piece (Elt F) S1x256 .f32)), { LS1 : List (View.Piece (Elt F) S1x256 .f32) //
      ∀ (xi7 : Vec F S1x256 .f32) (xi8 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__stats1_kernel_eq_skeleton]; unfold cc0__stats1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Fr

end
-- ==== Proof.Kernel.R0RunC.lean ====
import proofs.«406289_j13400297963801_3_alg».proof.Proof.Kernel.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : cond0_1 i)
    (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32) :
    Σ' (L6 : List (View.Piece (Elt F) S1000x128 .f32)) (L7 : List (View.Piece (Elt F) S1x256 .f32)) (L8 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stats1_kernel_eq_skeleton]; unfold cc0__stats1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Fr

end
-- ==== Proof.Kernel.R0.lean ====
import proofs.«406289_j13400297963801_3_alg».proof.Proof.PointOuts
import proofs.«406289_j13400297963801_3_alg».proof.Proof.Kernel.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)

section
variable (hc0 : cond0_0 i) (hc1 : ¬cond0_1 i) (x0 : Vec F S1000x128 .f32) (x1 : Vec F S1000x128 .f32) (x2 : Vec F S1000x1 .f32) (x3 : Vec F S1x1 .f32) (x4 : Vec F S128x256 .f32) (x5 : Vec F S256 .f32)

theorem cover0_A_6 (y : S1000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL _ S1000x128.size (by sl_kernel_rfl) y

theorem scover0_A_0 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL _ S1x256.size (by sl_kernel_rfl) y

theorem scover0_A_1 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL _ S1x256.size (by sl_kernel_rfl) y

def outs0_A : PointOuts F S1000x128 S1x256 :=
  let r := kernelRun0_A c i arg1 harg1 arg2 harg2 arg3 harg3 arg4 harg4 arg5 harg5 arg6 harg6 arg7 harg7 arg8 harg8 arg9 harg9 arg10 harg10 arg11 harg11 hc0 hc1 x0 x1 x2 x3 x4 x5
  ⟨VO0_6.read (Elt F) (VO0_6.writes (Elt F) VO0_6.junk r.1),
   VO0_7.read (Elt F) (VO0_7.writes (Elt F) VO0_7.junk r.2.1),
   VO0_8.read (Elt F) (VO0_8.writes (Elt F) VO0_8.junk r.2.2.1),
   VS0_0.read (Elt F) (VS0_0.writes (Elt F) VS0_0.junk r.2.2.2.1),
   VS0_1.read (Elt F) (VS0_1.writes (Elt F) VS0_1.junk r.2.2.2.2.1)⟩

end

section
variable (hc0 : ¬cond0_0 i) (hc1 : ¬cond0_1 i) (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32)

theorem cover0_B_6 (y : S1000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S1000x128.size (by sl_kernel_rfl) y

theorem scover0_B_0 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL _ S1x256.size (by sl_kernel_rfl) y

theorem scover0_B_1 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL _ S1x256.size (by sl_kernel_rfl) y

def outs0_B : PointOuts F S1000x128 S1x256 :=
  let r := kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨VO0_6.read (Elt F) (VO0_6.writes (Elt F) VO0_6.junk r.1),
   VO0_7.read (Elt F) (VO0_7.writes (Elt F) VO0_7.junk r.2.1),
   VO0_8.read (Elt F) (VO0_8.writes (Elt F) VO0_8.junk r.2.2.1),
   VS0_0.read (Elt F) (VS0_0.writes (Elt F) VS0_0.junk r.2.2.2.1),
   VS0_1.read (Elt F) (VS0_1.writes (Elt F) VS0_1.junk r.2.2.2.2.1)⟩

end

section
variable (hc0 : ¬cond0_0 i) (hc1 : cond0_1 i) (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32)

theorem cover0_C_6 (y : S1000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S1000x128.size (by sl_kernel_rfl) y

theorem cover0_C_7 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL _ S1x256.size (by sl_kernel_rfl) y

theorem cover0_C_8 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL _ S1x256.size (by sl_kernel_rfl) y

theorem scover0_C_0 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL _ S1x256.size (by sl_kernel_rfl) y

theorem scover0_C_1 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL _ S1x256.size (by sl_kernel_rfl) y

def outs0_C : PointOuts F S1000x128 S1x256 :=
  let r := kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨VO0_6.read (Elt F) (VO0_6.writes (Elt F) VO0_6.junk r.1),
   VO0_7.read (Elt F) (VO0_7.writes (Elt F) VO0_7.junk r.2.1),
   VO0_8.read (Elt F) (VO0_8.writes (Elt F) VO0_8.junk r.2.2.1),
   VS0_0.read (Elt F) (VS0_0.writes (Elt F) VS0_0.junk r.2.2.2.1),
   VS0_1.read (Elt F) (VS0_1.writes (Elt F) VS0_1.junk r.2.2.2.2.1)⟩

end

end

section Region

variable (V : (c : Dev nD) → (b : Ref sig .tc) → Buf (Elt F) ((c : Thread nD τ).loc b))

def outsAt0 (c : Dev nD) : (n : ℕ) → n < cfg0.N → PointOuts F S1000x128 S1x256
  | 0, hn =>
      outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h1 : n + 1 = 9 then
      outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).sum (outsAt0 c n (Nat.lt_of_succ_lt hn)).sq
    else
      outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).sum (outsAt0 c n (Nat.lt_of_succ_lt hn)).sq

theorem outsAt0_A (c : Dev nD) (t : Fin cfg0.N) (h0 : t.val = 0) (h1 : ¬t.val = 9) :
    outsAt0 V c t.val t.isLt =
      outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt =
      outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt =
      outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq := by
  obtain ⟨n, hn⟩ := t
  cases n with
  | zero => exact absurd rfl h0
  | succ n => exact (dif_pos h1).trans rfl

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).sum ∗ owns (c : Thread nD τ) scM0_1 fullShare (outsAt0 V c n hn).sq)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).sum ∗ owns (c : Thread nD τ) scM0_1 fullShare (outsAt0 V c n hn).sq)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).sum ∗ owns (c : Thread nD τ) scM0_1 fullShare (outsAt0 V c (n - 1) (by omega)).sq)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).tile
    | ⟨7, _⟩ => (outsAt0 V c t.val t.isLt).sumOut
    | ⟨8, _⟩ => (outsAt0 V c t.val t.isLt).sqOut
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).tile := by dsimp only [dat0]
theorem after0_7 (c : Dev nD) (t : Fin cfg0.N) : (dat0 V c).after 7 t = (outsAt0 V c t.val t.isLt).sumOut := by dsimp only [dat0]
theorem after0_8 (c : Dev nD) (t : Fin cfg0.N) : (dat0 V c).after 8 t = (outsAt0 V c t.val t.isLt).sqOut := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
theorem leaves0_3 (c : Dev nD) (t : Fin cfg0.N) : (dat0 V c).leavesExact 3 t = owns (c : Thread nD τ) (ms0_3 t) fullShare ((dat0 V c).after 3 t) := by
  unfold Dat.leavesExact; rw [liveAt0_3 t]
theorem leaves0_4 (c : Dev nD) (t : Fin cfg0.N) : (dat0 V c).leavesExact 4 t = owns (c : Thread nD τ) (ms0_4 t) fullShare ((dat0 V c).after 4 t) := by
  unfold Dat.leavesExact; rw [liveAt0_4 t]
theorem leaves0_5 (c : Dev nD) (t : Fin cfg0.N) : (dat0 V c).leavesExact 5 t = owns (c : Thread nD τ) (ms0_5 t) fullShare ((dat0 V c).after 5 t) := by
  unfold Dat.leavesExact; rw [liveAt0_5 t]
theorem leaves0_6 (c : Dev nD) (t : Fin cfg0.N) : (dat0 V c).leavesExact 6 t = owns (c : Thread nD τ) (ms0_6 t) fullShare ((dat0 V c).after 6 t) := by
  unfold Dat.leavesExact; rw [liveAt0_6 t]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [leaves0_0 V c t, after0_0, leaves0_1 V c t, after0_1, leaves0_2 V c t, after0_2, leaves0_3 V c t, after0_3, leaves0_4 V c t, after0_4, leaves0_5 V c t, after0_5, leaves0_6 V c t, after0_6]
  by_cases h0 : t.val = 0
  · by_cases h1 : t.val = 9
    · exfalso; omega
    ·
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold outs0_A; (try dsimp only)
      rw [PhiS0_castSucc V c t, PhiS0_zero V c _ _ h0, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]; · iexists _; iexact H7
      iexists _; iexact H8
  · by_cases h1 : t.val = 9
    ·
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold outs0_C; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    ·
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold outs0_B; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Region

end Cert.Kernel.Fr

end
-- ==== Proof.Kernel.R1Runs.lean ====
import proofs.«406289_j13400297963801_3_alg».proof.Proof.Gen.Kernel.Launch
import proofs.«406289_j13400297963801_3_alg».proof.Proof.Gen.Kernel.Skeleton
import proofs.«406289_j13400297963801_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 9 :=
  (by decide +kernel : ∀ t : Fin grid1.N, cond1_1 (grid1.coords t) ↔ t.val = 9)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem liveAt1_5 : ∀ t : Fin cfg1.N, cfg1.idle 5 (grid1.coords t) = false := by decide +kernel

theorem liveAt1_6 : ∀ t : Fin cfg1.N, cfg1.idle 6 (grid1.coords t) = false := by decide +kernel

theorem liveAt1_7 : ∀ t : Fin cfg1.N, cfg1.idle 7 (grid1.coords t) = false := by decide +kernel

theorem liveAt1_8 : ∀ t : Fin cfg1.N, cfg1.idle 8 (grid1.coords t) = false := by decide +kernel

theorem liveAt1_9 : ∀ t : Fin cfg1.N, cfg1.idle 9 (grid1.coords t) = false := by decide +kernel

theorem idleAt1_10_A : ∀ t : Fin cfg1.N, cond1_0 (grid1.coords t) → ¬cond1_1 (grid1.coords t) → cfg1.idle 10 (grid1.coords t) = true := by decide +kernel

theorem noFlush1_10_A : ∀ t : Fin cfg1.N, cond1_0 (grid1.coords t) → ¬cond1_1 (grid1.coords t) → (cfg1.win 10).flush t = false := by decide +kernel

theorem idleAt1_10_B : ∀ t : Fin cfg1.N, ¬cond1_0 (grid1.coords t) → ¬cond1_1 (grid1.coords t) → cfg1.idle 10 (grid1.coords t) = true := by decide +kernel

theorem noFlush1_10_B : ∀ t : Fin cfg1.N, ¬cond1_0 (grid1.coords t) → ¬cond1_1 (grid1.coords t) → (cfg1.win 10).flush t = false := by decide +kernel

theorem liveAt1_10_C : ∀ t : Fin cfg1.N, ¬cond1_0 (grid1.coords t) → cond1_1 (grid1.coords t) → cfg1.idle 10 (grid1.coords t) = false := by decide +kernel

theorem idleAt1_11_A : ∀ t : Fin cfg1.N, cond1_0 (grid1.coords t) → ¬cond1_1 (grid1.coords t) → cfg1.idle 11 (grid1.coords t) = true := by decide +kernel

theorem noFlush1_11_A : ∀ t : Fin cfg1.N, cond1_0 (grid1.coords t) → ¬cond1_1 (grid1.coords t) → (cfg1.win 11).flush t = false := by decide +kernel

theorem idleAt1_11_B : ∀ t : Fin cfg1.N, ¬cond1_0 (grid1.coords t) → ¬cond1_1 (grid1.coords t) → cfg1.idle 11 (grid1.coords t) = true := by decide +kernel

theorem noFlush1_11_B : ∀ t : Fin cfg1.N, ¬cond1_0 (grid1.coords t) → ¬cond1_1 (grid1.coords t) → (cfg1.win 11).flush t = false := by decide +kernel

theorem liveAt1_11_C : ∀ t : Fin cfg1.N, ¬cond1_0 (grid1.coords t) → cond1_1 (grid1.coords t) → cfg1.idle 11 (grid1.coords t) = false := by decide +kernel

abbrev VO1_9 : View sig .tc .vmem S1000x128 .f32 := (Memref.whole cc1_stg9_0 : Memref sig .tc .vmem S1000x128 .f32).view
abbrev VO1_10 : View sig .tc .vmem S1x128 .f32 := (Memref.whole cc1_stg10_0 : Memref sig .tc .vmem S1x128 .f32).view
abbrev VO1_11 : View sig .tc .vmem S1x128 .f32 := (Memref.whole cc1_stg11_0 : Memref sig .tc .vmem S1x128 .f32).view

abbrev ms1_0 (t : Fin cfg1.N) : Memref sig .tc .vmem S1000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1000x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)

abbrev scM1_0 : Memref sig .tc .vmem S1x128 .f32 := Memref.whole cc1_scratch0
abbrev scM1_1 : Memref sig .tc .vmem S1x128 .f32 := Memref.whole cc1_scratch1

abbrev VS1_0 : View sig .tc .vmem S1x128 .f32 := scM1_0.view
abbrev VS1_1 : View sig .tc .vmem S1x128 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Fr

end
-- ==== Proof.Kernel.R1RunA.lean ====
import proofs.«406289_j13400297963801_3_alg».proof.Proof.Kernel.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i)
    (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) :
    Σ' (L9 : List (View.Piece (Elt F) S1000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (xi10 : Vec F S1x128 .f32) (xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__norm1_lin2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, fun xi10 xi11 E K => ?run⟩
  case run =>
    simp only [cc1__norm1_lin2_kernel_eq_skeleton]; unfold cc1__norm1_lin2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Fr

end
-- ==== Proof.Kernel.R1RunB.lean ====
import proofs.«406289_j13400297963801_3_alg».proof.Proof.Kernel.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i)
    (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32) :
    Σ' (L9 : List (View.Piece (Elt F) S1000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (xi10 : Vec F S1x128 .f32) (xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__norm1_lin2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, fun xi10 xi11 E K => ?run⟩
  case run =>
    simp only [cc1__norm1_lin2_kernel_eq_skeleton]; unfold cc1__norm1_lin2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Fr

end
-- ==== Proof.Kernel.R1RunC.lean ====
import proofs.«406289_j13400297963801_3_alg».proof.Proof.Kernel.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_C (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i)
    (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32) :
    Σ' (L9 : List (View.Piece (Elt F) S1000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__norm1_lin2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1__norm1_lin2_kernel_eq_skeleton]; unfold cc1__norm1_lin2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Fr

end
-- ==== Proof.Kernel.R1.lean ====
import proofs.«406289_j13400297963801_3_alg».proof.Proof.PointOuts
import proofs.«406289_j13400297963801_3_alg».proof.Proof.Kernel.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)

section
variable (hc0 : cond1_0 i) (hc1 : ¬cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32)

theorem cover1_A_9 (y : S1000x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL _ S1000x128.size (by sl_kernel_rfl) y

theorem scover1_A_0 (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL _ S1x128.size (by sl_kernel_rfl) y

theorem scover1_A_1 (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.2.1, y ∈ pc.1.set :=
  View.cover_of_tiledL _ S1x128.size (by sl_kernel_rfl) y

def outs1_A : PointOuts F S1000x128 S1x128 :=
  let r := kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
  ⟨VO1_9.read (Elt F) (VO1_9.writes (Elt F) VO1_9.junk r.1),
   VO1_10.read (Elt F) (VO1_10.writes (Elt F) VO1_10.junk r.2.1),
   VO1_11.read (Elt F) (VO1_11.writes (Elt F) VO1_11.junk r.2.2.1),
   VS1_0.read (Elt F) (VS1_0.writes (Elt F) VS1_0.junk r.2.2.2.1),
   VS1_1.read (Elt F) (VS1_1.writes (Elt F) VS1_1.junk r.2.2.2.2.1)⟩

end

section
variable (hc0 : ¬cond1_0 i) (hc1 : ¬cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32)

theorem cover1_B_9 (y : S1000x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL _ S1000x128.size (by sl_kernel_rfl) y

theorem scover1_B_0 (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x128.size (by sl_kernel_rfl) y

theorem scover1_B_1 (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL _ S1x128.size (by sl_kernel_rfl) y

def outs1_B : PointOuts F S1000x128 S1x128 :=
  let r := kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
  ⟨VO1_9.read (Elt F) (VO1_9.writes (Elt F) VO1_9.junk r.1),
   VO1_10.read (Elt F) (VO1_10.writes (Elt F) VO1_10.junk r.2.1),
   VO1_11.read (Elt F) (VO1_11.writes (Elt F) VO1_11.junk r.2.2.1),
   VS1_0.read (Elt F) (VS1_0.writes (Elt F) VS1_0.junk r.2.2.2.1),
   VS1_1.read (Elt F) (VS1_1.writes (Elt F) VS1_1.junk r.2.2.2.2.1)⟩

end

section
variable (hc0 : ¬cond1_0 i) (hc1 : cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32)

theorem cover1_C_9 (y : S1000x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL _ S1000x128.size (by sl_kernel_rfl) y

theorem cover1_C_10 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL _ S1x128.size (by sl_kernel_rfl) y

theorem cover1_C_11 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL _ S1x128.size (by sl_kernel_rfl) y

theorem scover1_C_0 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x128.size (by sl_kernel_rfl) y

theorem scover1_C_1 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL _ S1x128.size (by sl_kernel_rfl) y

def outs1_C : PointOuts F S1000x128 S1x128 :=
  let r := kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
  ⟨VO1_9.read (Elt F) (VO1_9.writes (Elt F) VO1_9.junk r.1),
   VO1_10.read (Elt F) (VO1_10.writes (Elt F) VO1_10.junk r.2.1),
   VO1_11.read (Elt F) (VO1_11.writes (Elt F) VO1_11.junk r.2.2.1),
   VS1_0.read (Elt F) (VS1_0.writes (Elt F) VS1_0.junk r.2.2.2.1),
   VS1_1.read (Elt F) (VS1_1.writes (Elt F) VS1_1.junk r.2.2.2.2.1)⟩

end

end

section

variable (V : (c : Dev nD) → (b : Ref sig .tc) → Buf (Elt F) ((c : Thread nD τ).loc b))

def outsAt1 (c : Dev nD) : (n : ℕ) → n < cfg1.N → PointOuts F S1000x128 S1x128
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩)
  | n + 1, hn =>
    if h1 : n + 1 = 9 then
      outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).sum (outsAt1 c n (Nat.lt_of_succ_lt hn)).sq
    else
      outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).sum (outsAt1 c n (Nat.lt_of_succ_lt hn)).sq

theorem outsAt1_A (c : Dev nD) (t : Fin cfg1.N) (h0 : t.val = 0) (h1 : ¬t.val = 9) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 9) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq := by
  obtain ⟨n, hn⟩ := t
  cases n with
  | zero => exact absurd rfl h0
  | succ n => exact (dif_neg h1).trans rfl

theorem outsAt1_C (c : Dev nD) (t : Fin cfg1.N) (h0 : ¬t.val = 0) (h1 : t.val = 9) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).sum) ∗ owns (c : Thread nD τ) scM1_1 fullShare ((outsAt1 V c n hn).sq))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).sum) ∗ owns (c : Thread nD τ) scM1_1 fullShare ((outsAt1 V c n hn).sq))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).sum) ∗ owns (c : Thread nD τ) scM1_1 fullShare ((outsAt1 V c (n - 1) (by omega)).sq))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).tile
    | ⟨10, _⟩ => (outsAt1 V c t.val t.isLt).sumOut
    | ⟨11, _⟩ => (outsAt1 V c t.val t.isLt).sqOut
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).tile := by dsimp only [dat1]
theorem after1_10 (c : Dev nD) (t : Fin cfg1.N) : (dat1 V c).after 10 t = (outsAt1 V c t.val t.isLt).sumOut := by dsimp only [dat1]
theorem after1_11 (c : Dev nD) (t : Fin cfg1.N) : (dat1 V c).after 11 t = (outsAt1 V c t.val t.isLt).sqOut := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have h1 : ¬t.val = 9 := by omega
    rw [Dat.leavesExact_idle (dat1 V c) 10 t (idleAt1_10_A t ((hcond1_0 t).mpr h0) (fun h => h1 ((hcond1_1 t).mp h))) (noFlush1_10_A t ((hcond1_0 t).mpr h0) (fun h => h1 ((hcond1_1 t).mp h)))]
    rw [Dat.leavesExact_idle (dat1 V c) 11 t (idleAt1_11_A t ((hcond1_0 t).mpr h0) (fun h => h1 ((hcond1_1 t).mp h))) (noFlush1_11_A t ((hcond1_0 t).mpr h0) (fun h => h1 ((hcond1_1 t).mp h)))]
    rw [outsAt1_A V c t h0 h1]
    unfold outs1_A; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _ _ _ _ _ _ _ _)
    isplitl [H10]; · iexists _; iexact H10
    iexists _; iexact H11
  · by_cases h1 : t.val = 9
    · rw [show (dat1 V c).leavesExact 10 t = owns (c : Thread nD τ) (ms1_10 t) fullShare ((dat1 V c).after 10 t) from by
        unfold Dat.leavesExact; rw [liveAt1_10_C t (fun h => h0 ((hcond1_0 t).mp h)) ((hcond1_1 t).mpr h1)], after1_10]
      rw [show (dat1 V c).leavesExact 11 t = owns (c : Thread nD τ) (ms1_11 t) fullShare ((dat1 V c).after 11 t) from by
        unfold Dat.leavesExact; rw [liveAt1_11_C t (fun h => h0 ((hcond1_0 t).mp h)) ((hcond1_1 t).mpr h1)], after1_11]
      rw [outsAt1_C V c t h0 h1]
      unfold outs1_C; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover1_C_11 c _ _ _ _ _ _ _ _ _ _ _ _ _ _ _ _ _ _ _ _ _ _ _ _ _ _ _ _ _ _ _ _ _ _ _ _ _ _ _ _ _ _)
    · rw [Dat.leavesExact_idle (dat1 V c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      rw [Dat.leavesExact_idle (dat1 V c) 11 t (idleAt1_11_B t (fun h => h0 ((hcond1_0 t).mp h)) (fun h => h1 ((hcond1_1 t).mp h))) (noFlush1_11_B t (fun h => h0 ((hcond1_0 t).mp h)) (fun h => h1 ((hcond1_1 t).mp h)))]
      rw [outsAt1_B V c t h0 h1]
      unfold outs1_B; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _ _)
      isplitl [H10]; · iexists _; iexact H10
      iexists _; iexact H11

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 10 := N_1; omega)

end

end Cert.Kernel.Fr

end
-- ==== Proof.Kernel.R2.lean ====
import proofs.«406289_j13400297963801_3_alg».proof.Proof.Gen.Kernel.Launch
import proofs.«406289_j13400297963801_3_alg».proof.Proof.Gen.Kernel.Skeleton
import proofs.«406289_j13400297963801_3_alg».proof.Proof.Gen.Kernel.Points
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1000x128 := Rect.unit (s := S1000x128) ![0, 0] S1000x128.size inb_S1000x128_S1000x128_0_0

abbrev r2_1 : Rect S128 := Rect.unit (s := S128) ![0] S128.size inb_S128_S128_0

def out2_5 (x0 : Vec F S1000x128 .f32) (x1 x2 x3 x4 : Vec F S128 .f32) : Vec F S1000x128 .f32 :=
  View.canon [⟨r2_0, k2_pay1 (View.ld x0 r2_0) (View.ld x2 r2_1) (View.ld x1 r2_1) (View.ld x3 r2_1) (View.ld x4 r2_1)⟩]

theorem cover2_5 (p0 : Vec F S1000x128 .f32) (y : S1000x128.Idx) :
    ∃ pc ∈ ([⟨r2_0, p0⟩] : List (View.Piece (Elt F) S1000x128 .f32)), y ∈ pc.1.set :=
  View.cover_of_tiled [⟨r2_0, p0⟩] S1000x128.size (by rfl) y

set_option maxHeartbeats 1000000 in

theorem sound_kernel2 (c : Dev nD) (E : Set ℕ) (i : grid2.Coords) (arg1 : Memref sig .tc .vmem S1000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S1000x128 .f32) (harg6 : arg6.IsWhole)
    (x0 : Vec F S1000x128 .f32) (x1 x2 x3 x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm2_kernel i arg1 harg1 arg2 harg2 arg3 harg3 arg4 harg4 arg5 harg5 arg6 harg6) K := by
  simp only [cc2__norm2_kernel_eq_skeleton]; unfold cc2__norm2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]

theorem hout2 (c : Dev nD) : (dat2 V c).Φ (Fin.last cfg2.N) ⊢ Pipeline.ΦA spec2 c := by
  rw [show (dat2 V c).Φ (Fin.last cfg2.N) = Pipeline.ΦA spec2 c from rfl]

end Region2

end Cert.Kernel.Fr

end
-- ==== Proof.Kernel.Run3.lean ====
import proofs.«406289_j13400297963801_3_alg».proof.Proof.Kernel.R0
import proofs.«406289_j13400297963801_3_alg».proof.Proof.Kernel.R1
import proofs.«406289_j13400297963801_3_alg».proof.Proof.Kernel.R2
import proofs.«406289_j13400297963801_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h.trans (hin2 (V5 m) c)
  hout c := by
    rw [Pipeline.ownSems0_none]
    have h : (Pipeline.ΦA spec2 c : sProp 𝕄)
        ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V5 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Fr

end
-- ==== Proof.Kernel.Args.lean ====
import proofs.«406289_j13400297963801_3_alg».proof.Proof.Kernel.Run3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W3_keep (c : Dev nD) (b : Ref sig .tc) (h : b ∉ hostOps1_W) :
    W3 m c (Proc.devRef .tc b) = W2 m c (Proc.devRef .tc b) :=
  StableHlo.after_of_writes_sub hostOps1 _ hostOps1_writes h
theorem W5_keep (c : Dev nD) (b : Ref sig .tc) (h : b ∉ hostOps2_W) :
    W5 m c (Proc.devRef .tc b) = W4 m c (Proc.devRef .tc b) :=
  StableHlo.after_of_writes_sub hostOps2 _ hostOps2_writes h

/-- A buffer that no stretch of host operations writes and no region writes back. -/
structure Kept (b : Ref sig .tc) : Prop where
  h0 : b ∉ hostOps0_W
  h1 : b ∉ hostOps1_W
  h2 : b ∉ hostOps2_W
  r0 : ∀ w, (cfg0.win w).isOut = true → Pipeline.arrRef spec0 w ≠ b
  r1 : ∀ w, (cfg1.win w).isOut = true → Pipeline.arrRef spec1 w ≠ b
  r2 : ∀ w, (cfg2.win w).isOut = true → Pipeline.arrRef spec2 w ≠ b

theorem kept0 : Kept main_arg0 := by constructor <;> decide
theorem kept1 : Kept main_arg1 := by constructor <;> decide
theorem kept2 : Kept main_arg2 := by constructor <;> decide
theorem kept3 : Kept main_arg3 := by constructor <;> decide
theorem kept4 : Kept main_arg4 := by constructor <;> decide
theorem kept5 : Kept main_arg5 := by constructor <;> decide
theorem kept6 : Kept main_arg6 := by constructor <;> decide
theorem kept7 : Kept main_arg7 := by constructor <;> decide
theorem kept8 : Kept main_arg8 := by constructor <;> decide
theorem kept9 : Kept main_arg9 := by constructor <;> decide
theorem kept10 : Kept main_arg10 := by constructor <;> decide
theorem kept11 : Kept main_arg11 := by constructor <;> decide
theorem kept12 : Kept main_arg12 := by constructor <;> decide

variable (c : Dev nD) {b : Ref sig .tc} (k : Kept b)
include k

theorem W1_kept : W1 m c (Proc.devRef .tc b) = m ((c : Thread nD τ).loc b) :=
  StableHlo.after_of_writes_sub hostOps0 _ hostOps0_writes k.h0

/-- A region leaves an array it only reads, and a buffer that is none of its arrays, as it found it. -/
theorem W2_kept : W2 m c (Proc.devRef .tc b) = m ((c : Thread nD τ).loc b) := by
  refine Eq.trans ?_ (W1_kept m c k)
  by_cases hb : ∃ w, Pipeline.arrRef spec0 w = b
  · obtain ⟨w, rfl⟩ := hb
    have hin : (cfg0.win w).isOut = false := Bool.eq_false_iff.mpr fun hw => k.r0 w hw rfl
    exact (W2_arr m c w).trans (((dat0 (V1 m) c).arrAt_in w hin _).trans (A_eq0 (V1 m) c w))
  · exact W2_of_ne m c b fun w hw => hb ⟨w, hw⟩

theorem W3_kept : W3 m c (Proc.devRef .tc b) = m ((c : Thread nD τ).loc b) :=
  (W3_keep m c b k.h1).trans (W2_kept m c k)

theorem W4_kept : W4 m c (Proc.devRef .tc b) = m ((c : Thread nD τ).loc b) := by
  refine Eq.trans ?_ (W3_kept m c k)
  by_cases hb : ∃ w, Pipeline.arrRef spec1 w = b
  · obtain ⟨w, rfl⟩ := hb
    have hin : (cfg1.win w).isOut = false := Bool.eq_false_iff.mpr fun hw => k.r1 w hw rfl
    exact (W4_arr m c w).trans (((dat1 (V3 m) c).arrAt_in w hin _).trans (A_eq1 (V3 m) c w))
  · exact W4_of_ne m c b fun w hw => hb ⟨w, hw⟩

theorem W5_kept : W5 m c (Proc.devRef .tc b) = m ((c : Thread nD τ).loc b) :=
  (W5_keep m c b k.h2).trans (W4_kept m c k)

theorem W6_kept : W6 m c (Proc.devRef .tc b) = m ((c : Thread nD τ).loc b) := by
  refine Eq.trans ?_ (W5_kept m c k)
  by_cases hb : ∃ w, Pipeline.arrRef spec2 w = b
  · obtain ⟨w, rfl⟩ := hb
    have hin : (cfg2.win w).isOut = false := Bool.eq_false_iff.mpr fun hw => k.r2 w hw rfl
    exact (W6_arr m c w).trans (((dat2 (V5 m) c).arrAt_in w hin _).trans (A_eq2 (V5 m) c w))
  · exact W6_of_ne m c b fun w hw => hb ⟨w, hw⟩

end Cert.Kernel.Fr

end
-- ==== Proof.KernelIdeal.R0Runs.lean ====
import proofs.«406289_j13400297963801_3_alg».proof.Proof.Gen.KernelIdeal.Launch
import proofs.«406289_j13400297963801_3_alg».proof.Proof.Gen.KernelIdeal.Skeleton
import proofs.«406289_j13400297963801_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 9 :=
  (by decide +kernel : ∀ t : Fin grid0.N, cond0_1 (grid0.coords t) ↔ t.val = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel

theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel

theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel

theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel

theorem liveAt0_8_C : ∀ t : Fin cfg0.N, ¬cond0_0 (grid0.coords t) → cond0_1 (grid0.coords t) → cfg0.idle 8 (grid0.coords t) = false := by decide +kernel

abbrev VO0_6 : View sig .tc .vmem S1000x128 .f32 := (Memref.whole cc0_stg6_0 : Memref sig .tc .vmem S1000x128 .f32).view
abbrev VO0_7 : View sig .tc .vmem S1x256 .f32 := (Memref.whole cc0_stg7_0 : Memref sig .tc .vmem S1x256 .f32).view
abbrev VO0_8 : View sig .tc .vmem S1x256 .f32 := (Memref.whole cc0_stg8_0 : Memref sig .tc .vmem S1x256 .f32).view

abbrev ms0_0 (t : Fin cfg0.N) : Memref sig .tc .vmem S1000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)

abbrev scM0_0 : Memref sig .tc .vmem S1x256 .f32 := Memref.whole cc0_scratch0
abbrev scM0_1 : Memref sig .tc .vmem S1x256 .f32 := Memref.whole cc0_scratch1

abbrev VS0_0 : View sig .tc .vmem S1x256 .f32 := scM0_0.view
abbrev VS0_1 : View sig .tc .vmem S1x256 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Fr

end
-- ==== Proof.KernelIdeal.R0RunA.lean ====
import proofs.«406289_j13400297963801_3_alg».proof.Proof.KernelIdeal.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S1000x128 .f32) (x1 : Vec F S1000x128 .f32) (x2 : Vec F S1000x1 .f32) (x3 : Vec F S1x1 .f32) (x4 : Vec F S128x256 .f32) (x5 : Vec F S256 .f32) :
    Σ' (L6 : List (View.Piece (Elt F) S1000x128 .f32)) (L7 : List (View.Piece (Elt F) S1x256 .f32)) (L8 : List (View.Piece (Elt F) S1x256 .f32)) (LS0 : List (View.Piece (Elt F) S1x256 .f32)), { LS1 : List (View.Piece (Elt F) S1x256 .f32) //
      ∀ (xi7 : Vec F S1x256 .f32) (xi8 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__stats1_kernel_eq_skeleton]; unfold cc0__stats1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Fr

end
-- ==== Proof.KernelIdeal.R0RunB.lean ====
import proofs.«406289_j13400297963801_3_alg».proof.Proof.KernelIdeal.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32) :
    Σ' (L6 : List (View.Piece (Elt F) S1000x128 .f32)) (L7 : List (View.Piece (Elt F) S1x256 .f32)) (L8 : List (View.Piece (Elt F) S1x256 .f32)) (LS0 : List (View.Piece (Elt F) S1x256 .f32)), { LS1 : List (View.Piece (Elt F) S1x256 .f32) //
      ∀ (xi7 : Vec F S1x256 .f32) (xi8 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__stats1_kernel_eq_skeleton]; unfold cc0__stats1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Fr

end
-- ==== Proof.KernelIdeal.R0RunC.lean ====
import proofs.«406289_j13400297963801_3_alg».proof.Proof.KernelIdeal.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : cond0_1 i)
    (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32) :
    Σ' (L6 : List (View.Piece (Elt F) S1000x128 .f32)) (L7 : List (View.Piece (Elt F) S1x256 .f32)) (L8 : List (View.Piece (Elt F) S1x256 .f32)) (LS0 : List (View.Piece (Elt F) S1x256 .f32)), { LS1 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stats1_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stats1_kernel_eq_skeleton]; unfold cc0__stats1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Fr

end
-- ==== Proof.KernelIdeal.R0.lean ====
import proofs.«406289_j13400297963801_3_alg».proof.Proof.PointOuts
import proofs.«406289_j13400297963801_3_alg».proof.Proof.KernelIdeal.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)

section
variable (hc0 : cond0_0 i) (hc1 : ¬cond0_1 i) (x0 : Vec F S1000x128 .f32) (x1 : Vec F S1000x128 .f32) (x2 : Vec F S1000x1 .f32) (x3 : Vec F S1x1 .f32) (x4 : Vec F S128x256 .f32) (x5 : Vec F S256 .f32)

theorem cover0_A_6 (y : S1000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL _ S1000x128.size (by sl_kernel_rfl) y

theorem scover0_A_0 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL _ S1x256.size (by sl_kernel_rfl) y

theorem scover0_A_1 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL _ S1x256.size (by sl_kernel_rfl) y

def outs0_A : PointOuts F S1000x128 S1x256 :=
  let r := kernelRun0_A c i arg1 harg1 arg2 harg2 arg3 harg3 arg4 harg4 arg5 harg5 arg6 harg6 arg7 harg7 arg8 harg8 arg9 harg9 arg10 harg10 arg11 harg11 hc0 hc1 x0 x1 x2 x3 x4 x5
  ⟨VO0_6.read (Elt F) (VO0_6.writes (Elt F) VO0_6.junk r.1),
   VO0_7.read (Elt F) (VO0_7.writes (Elt F) VO0_7.junk r.2.1),
   VO0_8.read (Elt F) (VO0_8.writes (Elt F) VO0_8.junk r.2.2.1),
   VS0_0.read (Elt F) (VS0_0.writes (Elt F) VS0_0.junk r.2.2.2.1),
   VS0_1.read (Elt F) (VS0_1.writes (Elt F) VS0_1.junk r.2.2.2.2.1)⟩

end

section
variable (hc0 : ¬cond0_0 i) (hc1 : ¬cond0_1 i) (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32)

theorem cover0_B_6 (y : S1000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S1000x128.size (by sl_kernel_rfl) y

theorem scover0_B_0 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL _ S1x256.size (by sl_kernel_rfl) y

theorem scover0_B_1 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL _ S1x256.size (by sl_kernel_rfl) y

def outs0_B : PointOuts F S1000x128 S1x256 :=
  let r := kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨VO0_6.read (Elt F) (VO0_6.writes (Elt F) VO0_6.junk r.1),
   VO0_7.read (Elt F) (VO0_7.writes (Elt F) VO0_7.junk r.2.1),
   VO0_8.read (Elt F) (VO0_8.writes (Elt F) VO0_8.junk r.2.2.1),
   VS0_0.read (Elt F) (VS0_0.writes (Elt F) VS0_0.junk r.2.2.2.1),
   VS0_1.read (Elt F) (VS0_1.writes (Elt F) VS0_1.junk r.2.2.2.2.1)⟩

end

section
variable (hc0 : ¬cond0_0 i) (hc1 : cond0_1 i) (x0 : Vec F S1000x128 .f32) (x1 : Vec F S1000x128 .f32) (x2 : Vec F S1000x1 .f32) (x3 : Vec F S1x1 .f32) (x4 : Vec F S128x256 .f32) (x5 : Vec F S256 .f32) (xs0 : Vec F S1x256 .f32) (xs1 : Vec F S1x256 .f32)

theorem cover0_C_6 (y : S1000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S1000x128.size (by sl_kernel_rfl) y

theorem cover0_C_7 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL _ S1x256.size (by sl_kernel_rfl) y

theorem cover0_C_8 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL _ S1x256.size (by sl_kernel_rfl) y

theorem scover0_C_0 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL _ S1x256.size (by sl_kernel_rfl) y

theorem scover0_C_1 (y : S1x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL _ S1x256.size (by sl_kernel_rfl) y

def outs0_C : PointOuts F S1000x128 S1x256 :=
  let r := kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨VO0_6.read (Elt F) (VO0_6.writes (Elt F) VO0_6.junk r.1),
   VO0_7.read (Elt F) (VO0_7.writes (Elt F) VO0_7.junk r.2.1),
   VO0_8.read (Elt F) (VO0_8.writes (Elt F) VO0_8.junk r.2.2.1),
   VS0_0.read (Elt F) (VS0_0.writes (Elt F) VS0_0.junk r.2.2.2.1),
   VS0_1.read (Elt F) (VS0_1.writes (Elt F) VS0_1.junk r.2.2.2.2.1)⟩

end

end

section Region

variable (V : (c : Dev nD) → (b : Ref sig .tc) → Buf (Elt F) ((c : Thread nD τ).loc b))

def outsAt0 (c : Dev nD) : (n : ℕ) → n < cfg0.N → PointOuts F S1000x128 S1x256
  | 0, hn =>
      outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h1 : n + 1 = 9 then
      outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).sum (outsAt0 c n (Nat.lt_of_succ_lt hn)).sq
    else
      outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).sum (outsAt0 c n (Nat.lt_of_succ_lt hn)).sq

theorem outsAt0_A (c : Dev nD) (t : Fin cfg0.N) (h0 : t.val = 0) (h1 : ¬t.val = 9) :
    outsAt0 V c t.val t.isLt =
      outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt =
      outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq := by
  obtain ⟨n, hn⟩ := t
  cases n with
  | zero => exact absurd rfl h0
  | succ n => exact (dif_neg h1).trans rfl

theorem outsAt0_C (c : Dev nD) (t : Fin cfg0.N) (h0 : ¬t.val = 0) (h1 : t.val = 9) :
    outsAt0 V c t.val t.isLt =
      outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq := by
  obtain ⟨n, hn⟩ := t
  cases n with
  | zero => exact absurd rfl h0
  | succ n => exact (dif_pos h1).trans rfl

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).sum ∗ owns (c : Thread nD τ) scM0_1 fullShare (outsAt0 V c n hn).sq)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).sum ∗ owns (c : Thread nD τ) scM0_1 fullShare (outsAt0 V c n hn).sq)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).sum ∗ owns (c : Thread nD τ) scM0_1 fullShare (outsAt0 V c (n - 1) (by omega)).sq)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).tile
    | ⟨7, _⟩ => (outsAt0 V c t.val t.isLt).sumOut
    | ⟨8, _⟩ => (outsAt0 V c t.val t.isLt).sqOut
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).tile := by dsimp only [dat0]
theorem after0_7 (c : Dev nD) (t : Fin cfg0.N) : (dat0 V c).after 7 t = (outsAt0 V c t.val t.isLt).sumOut := by dsimp only [dat0]
theorem after0_8 (c : Dev nD) (t : Fin cfg0.N) : (dat0 V c).after 8 t = (outsAt0 V c t.val t.isLt).sqOut := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
theorem leaves0_3 (c : Dev nD) (t : Fin cfg0.N) : (dat0 V c).leavesExact 3 t = owns (c : Thread nD τ) (ms0_3 t) fullShare ((dat0 V c).after 3 t) := by
  unfold Dat.leavesExact; rw [liveAt0_3 t]
theorem leaves0_4 (c : Dev nD) (t : Fin cfg0.N) : (dat0 V c).leavesExact 4 t = owns (c : Thread nD τ) (ms0_4 t) fullShare ((dat0 V c).after 4 t) := by
  unfold Dat.leavesExact; rw [liveAt0_4 t]
theorem leaves0_5 (c : Dev nD) (t : Fin cfg0.N) : (dat0 V c).leavesExact 5 t = owns (c : Thread nD τ) (ms0_5 t) fullShare ((dat0 V c).after 5 t) := by
  unfold Dat.leavesExact; rw [liveAt0_5 t]
theorem leaves0_6 (c : Dev nD) (t : Fin cfg0.N) : (dat0 V c).leavesExact 6 t = owns (c : Thread nD τ) (ms0_6 t) fullShare ((dat0 V c).after 6 t) := by
  unfold Dat.leavesExact; rw [liveAt0_6 t]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [leaves0_0 V c t, after0_0, leaves0_1 V c t, after0_1, leaves0_2 V c t, after0_2, leaves0_3 V c t, after0_3, leaves0_4 V c t, after0_4, leaves0_5 V c t, after0_5, leaves0_6 V c t, after0_6]
  by_cases h0 : t.val = 0
  · by_cases h1 : t.val = 9
    · exfalso; omega
    ·
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold outs0_A; (try dsimp only)
      rw [PhiS0_castSucc V c t, PhiS0_zero V c _ _ h0, PhiA0_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _)
      isplitl [H7]; · iexists _; iexact H7
      iexists _; iexact H8
  · by_cases h1 : t.val = 9
    ·
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold outs0_C; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    ·
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold outs0_B; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Region

end Cert.KernelIdeal.Fr

end
-- ==== Proof.KernelIdeal.R1Runs.lean ====
import proofs.«406289_j13400297963801_3_alg».proof.Proof.Gen.KernelIdeal.Launch
import proofs.«406289_j13400297963801_3_alg».proof.Proof.Gen.KernelIdeal.Skeleton
import proofs.«406289_j13400297963801_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 9 :=
  (by decide +kernel : ∀ t : Fin grid1.N, cond1_1 (grid1.coords t) ↔ t.val = 9)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem liveAt1_5 : ∀ t : Fin cfg1.N, cfg1.idle 5 (grid1.coords t) = false := by decide +kernel

theorem liveAt1_6 : ∀ t : Fin cfg1.N, cfg1.idle 6 (grid1.coords t) = false := by decide +kernel

theorem liveAt1_7 : ∀ t : Fin cfg1.N, cfg1.idle 7 (grid1.coords t) = false := by decide +kernel

theorem liveAt1_8 : ∀ t : Fin cfg1.N, cfg1.idle 8 (grid1.coords t) = false := by decide +kernel

theorem liveAt1_9 : ∀ t : Fin cfg1.N, cfg1.idle 9 (grid1.coords t) = false := by decide +kernel

theorem idleAt1_10_A : ∀ t : Fin cfg1.N, cond1_0 (grid1.coords t) → ¬cond1_1 (grid1.coords t) → cfg1.idle 10 (grid1.coords t) = true := by decide +kernel

theorem noFlush1_10_A : ∀ t : Fin cfg1.N, cond1_0 (grid1.coords t) → ¬cond1_1 (grid1.coords t) → (cfg1.win 10).flush t = false := by decide +kernel

theorem idleAt1_10_B : ∀ t : Fin cfg1.N, ¬cond1_0 (grid1.coords t) → ¬cond1_1 (grid1.coords t) → cfg1.idle 10 (grid1.coords t) = true := by decide +kernel

theorem noFlush1_10_B : ∀ t : Fin cfg1.N, ¬cond1_0 (grid1.coords t) → ¬cond1_1 (grid1.coords t) → (cfg1.win 10).flush t = false := by decide +kernel

theorem liveAt1_10_C : ∀ t : Fin cfg1.N, ¬cond1_0 (grid1.coords t) → cond1_1 (grid1.coords t) → cfg1.idle 10 (grid1.coords t) = false := by decide +kernel

theorem idleAt1_11_A : ∀ t : Fin cfg1.N, cond1_0 (grid1.coords t) → ¬cond1_1 (grid1.coords t) → cfg1.idle 11 (grid1.coords t) = true := by decide +kernel

theorem noFlush1_11_A : ∀ t : Fin cfg1.N, cond1_0 (grid1.coords t) → ¬cond1_1 (grid1.coords t) → (cfg1.win 11).flush t = false := by decide +kernel

theorem idleAt1_11_B : ∀ t : Fin cfg1.N, ¬cond1_0 (grid1.coords t) → ¬cond1_1 (grid1.coords t) → cfg1.idle 11 (grid1.coords t) = true := by decide +kernel

theorem noFlush1_11_B : ∀ t : Fin cfg1.N, ¬cond1_0 (grid1.coords t) → ¬cond1_1 (grid1.coords t) → (cfg1.win 11).flush t = false := by decide +kernel

theorem liveAt1_11_C : ∀ t : Fin cfg1.N, ¬cond1_0 (grid1.coords t) → cond1_1 (grid1.coords t) → cfg1.idle 11 (grid1.coords t) = false := by decide +kernel

abbrev VO1_9 : View sig .tc .vmem S1000x128 .f32 := (Memref.whole cc1_stg9_0 : Memref sig .tc .vmem S1000x128 .f32).view
abbrev VO1_10 : View sig .tc .vmem S1x128 .f32 := (Memref.whole cc1_stg10_0 : Memref sig .tc .vmem S1x128 .f32).view
abbrev VO1_11 : View sig .tc .vmem S1x128 .f32 := (Memref.whole cc1_stg11_0 : Memref sig .tc .vmem S1x128 .f32).view

abbrev ms1_0 (t : Fin cfg1.N) : Memref sig .tc .vmem S1000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1000x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)

abbrev scM1_0 : Memref sig .tc .vmem S1x128 .f32 := Memref.whole cc1_scratch0
abbrev scM1_1 : Memref sig .tc .vmem S1x128 .f32 := Memref.whole cc1_scratch1

abbrev VS1_0 : View sig .tc .vmem S1x128 .f32 := scM1_0.view
abbrev VS1_1 : View sig .tc .vmem S1x128 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Fr

end
-- ==== Proof.KernelIdeal.R1RunA.lean ====
import proofs.«406289_j13400297963801_3_alg».proof.Proof.KernelIdeal.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i)
    (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) :
    Σ' (L9 : List (View.Piece (Elt F) S1000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (xi10 : Vec F S1x128 .f32) (xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__norm1_lin2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, fun xi10 xi11 E K => ?run⟩
  case run =>
    simp only [cc1__norm1_lin2_kernel_eq_skeleton]; unfold cc1__norm1_lin2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Fr

end
-- ==== Proof.KernelIdeal.R1RunB.lean ====
import proofs.«406289_j13400297963801_3_alg».proof.Proof.KernelIdeal.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i)
    (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32) :
    Σ' (L9 : List (View.Piece (Elt F) S1000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (xi10 : Vec F S1x128 .f32) (xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__norm1_lin2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, [], [], ?_, ?_, fun xi10 xi11 E K => ?run⟩
  case run =>
    simp only [cc1__norm1_lin2_kernel_eq_skeleton]; unfold cc1__norm1_lin2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Fr

end
-- ==== Proof.KernelIdeal.R1RunC.lean ====
import proofs.«406289_j13400297963801_3_alg».proof.Proof.KernelIdeal.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_C (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i)
    (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32) :
    Σ' (L9 : List (View.Piece (Elt F) S1000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__norm1_lin2_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1__norm1_lin2_kernel_eq_skeleton]; unfold cc1__norm1_lin2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Fr

end
-- ==== Proof.KernelIdeal.R1.lean ====
import proofs.«406289_j13400297963801_3_alg».proof.Proof.PointOuts
import proofs.«406289_j13400297963801_3_alg».proof.Proof.KernelIdeal.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)

section
variable (hc0 : cond1_0 i) (hc1 : ¬cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32)

theorem cover1_A_9 (y : S1000x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL _ S1000x128.size (by sl_kernel_rfl) y

theorem scover1_A_0 (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL _ S1x128.size (by sl_kernel_rfl) y

theorem scover1_A_1 (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.2.1, y ∈ pc.1.set :=
  View.cover_of_tiledL _ S1x128.size (by sl_kernel_rfl) y

def outs1_A : PointOuts F S1000x128 S1x128 :=
  let r := kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
  ⟨VO1_9.read (Elt F) (VO1_9.writes (Elt F) VO1_9.junk r.1),
   VO1_10.read (Elt F) (VO1_10.writes (Elt F) VO1_10.junk r.2.1),
   VO1_11.read (Elt F) (VO1_11.writes (Elt F) VO1_11.junk r.2.2.1),
   VS1_0.read (Elt F) (VS1_0.writes (Elt F) VS1_0.junk r.2.2.2.1),
   VS1_1.read (Elt F) (VS1_1.writes (Elt F) VS1_1.junk r.2.2.2.2.1)⟩

end

section
variable (hc0 : ¬cond1_0 i) (hc1 : ¬cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32)

theorem cover1_B_9 (y : S1000x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL _ S1000x128.size (by sl_kernel_rfl) y

theorem scover1_B_0 (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x128.size (by sl_kernel_rfl) y

theorem scover1_B_1 (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL _ S1x128.size (by sl_kernel_rfl) y

def outs1_B : PointOuts F S1000x128 S1x128 :=
  let r := kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
  ⟨VO1_9.read (Elt F) (VO1_9.writes (Elt F) VO1_9.junk r.1),
   VO1_10.read (Elt F) (VO1_10.writes (Elt F) VO1_10.junk r.2.1),
   VO1_11.read (Elt F) (VO1_11.writes (Elt F) VO1_11.junk r.2.2.1),
   VS1_0.read (Elt F) (VS1_0.writes (Elt F) VS1_0.junk r.2.2.2.1),
   VS1_1.read (Elt F) (VS1_1.writes (Elt F) VS1_1.junk r.2.2.2.2.1)⟩

end

section
variable (hc0 : ¬cond1_0 i) (hc1 : cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32)

theorem cover1_C_9 (y : S1000x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL _ S1000x128.size (by sl_kernel_rfl) y

theorem cover1_C_10 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL _ S1x128.size (by sl_kernel_rfl) y

theorem cover1_C_11 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL _ S1x128.size (by sl_kernel_rfl) y

theorem scover1_C_0 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x128.size (by sl_kernel_rfl) y

theorem scover1_C_1 (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL _ S1x128.size (by sl_kernel_rfl) y

def outs1_C : PointOuts F S1000x128 S1x128 :=
  let r := kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
  ⟨VO1_9.read (Elt F) (VO1_9.writes (Elt F) VO1_9.junk r.1),
   VO1_10.read (Elt F) (VO1_10.writes (Elt F) VO1_10.junk r.2.1),
   VO1_11.read (Elt F) (VO1_11.writes (Elt F) VO1_11.junk r.2.2.1),
   VS1_0.read (Elt F) (VS1_0.writes (Elt F) VS1_0.junk r.2.2.2.1),
   VS1_1.read (Elt F) (VS1_1.writes (Elt F) VS1_1.junk r.2.2.2.2.1)⟩

end

end

section

variable (V : (c : Dev nD) → (b : Ref sig .tc) → Buf (Elt F) ((c : Thread nD τ).loc b))

def outsAt1 (c : Dev nD) : (n : ℕ) → n < cfg1.N → PointOuts F S1000x128 S1x128
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩)
  | n + 1, hn =>
    if h1 : n + 1 = 9 then
      outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).sum (outsAt1 c n (Nat.lt_of_succ_lt hn)).sq
    else
      outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).sum (outsAt1 c n (Nat.lt_of_succ_lt hn)).sq

theorem outsAt1_A (c : Dev nD) (t : Fin cfg1.N) (h0 : t.val = 0) (h1 : ¬t.val = 9) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 9) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq := by
  obtain ⟨n, hn⟩ := t
  cases n with
  | zero => exact absurd rfl h0
  | succ n => exact (dif_neg h1).trans rfl

theorem outsAt1_C (c : Dev nD) (t : Fin cfg1.N) (h0 : ¬t.val = 0) (h1 : t.val = 9) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).sum) ∗ owns (c : Thread nD τ) scM1_1 fullShare ((outsAt1 V c n hn).sq))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).sum) ∗ owns (c : Thread nD τ) scM1_1 fullShare ((outsAt1 V c n hn).sq))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).sum) ∗ owns (c : Thread nD τ) scM1_1 fullShare ((outsAt1 V c (n - 1) (by omega)).sq))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).tile
    | ⟨10, _⟩ => (outsAt1 V c t.val t.isLt).sumOut
    | ⟨11, _⟩ => (outsAt1 V c t.val t.isLt).sqOut
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).tile := by dsimp only [dat1]
theorem after1_10 (c : Dev nD) (t : Fin cfg1.N) : (dat1 V c).after 10 t = (outsAt1 V c t.val t.isLt).sumOut := by dsimp only [dat1]
theorem after1_11 (c : Dev nD) (t : Fin cfg1.N) : (dat1 V c).after 11 t = (outsAt1 V c t.val t.isLt).sqOut := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have h1 : ¬t.val = 9 := by omega
    rw [Dat.leavesExact_idle (dat1 V c) 10 t (idleAt1_10_A t ((hcond1_0 t).mpr h0) (fun h => h1 ((hcond1_1 t).mp h))) (noFlush1_10_A t ((hcond1_0 t).mpr h0) (fun h => h1 ((hcond1_1 t).mp h)))]
    rw [Dat.leavesExact_idle (dat1 V c) 11 t (idleAt1_11_A t ((hcond1_0 t).mpr h0) (fun h => h1 ((hcond1_1 t).mp h))) (noFlush1_11_A t ((hcond1_0 t).mpr h0) (fun h => h1 ((hcond1_1 t).mp h)))]
    rw [outsAt1_A V c t h0 h1]
    unfold outs1_A; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _ _ _ _ _ _ _ _)
    isplitl [H10]; · iexists _; iexact H10
    iexists _; iexact H11
  · by_cases h1 : t.val = 9
    · rw [show (dat1 V c).leavesExact 10 t = owns (c : Thread nD τ) (ms1_10 t) fullShare ((dat1 V c).after 10 t) from by
        unfold Dat.leavesExact; rw [liveAt1_10_C t (fun h => h0 ((hcond1_0 t).mp h)) ((hcond1_1 t).mpr h1)], after1_10]
      rw [show (dat1 V c).leavesExact 11 t = owns (c : Thread nD τ) (ms1_11 t) fullShare ((dat1 V c).after 11 t) from by
        unfold Dat.leavesExact; rw [liveAt1_11_C t (fun h => h0 ((hcond1_0 t).mp h)) ((hcond1_1 t).mpr h1)], after1_11]
      rw [outsAt1_C V c t h0 h1]
      unfold outs1_C; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover1_C_11 c _ _ _ _ _ _ _ _ _ _ _ _ _ _ _ _ _ _ _ _ _ _ _ _ _ _ _ _ _ _ _ _ _ _ _ _ _ _ _ _ _ _)
    · rw [Dat.leavesExact_idle (dat1 V c) 10 t (idleAt1_10_B t (fun h => h0 ((hcond1_0 t).mp h)) (fun h => h1 ((hcond1_1 t).mp h))) (noFlush1_10_B t (fun h => h0 ((hcond1_0 t).mp h)) (fun h => h1 ((hcond1_1 t).mp h)))]
      rw [Dat.leavesExact_idle (dat1 V c) 11 t (idleAt1_11_B t (fun h => h0 ((hcond1_0 t).mp h)) (fun h => h1 ((hcond1_1 t).mp h))) (noFlush1_11_B t (fun h => h0 ((hcond1_0 t).mp h)) (fun h => h1 ((hcond1_1 t).mp h)))]
      rw [outsAt1_B V c t h0 h1]
      unfold outs1_B; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _ _)
      isplitl [H10]; · iexists _; iexact H10
      iexists _; iexact H11

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 10 := N_1; omega)

end

end Cert.KernelIdeal.Fr

end
-- ==== Proof.KernelIdeal.R2.lean ====
import proofs.«406289_j13400297963801_3_alg».proof.Proof.Gen.KernelIdeal.Launch
import proofs.«406289_j13400297963801_3_alg».proof.Proof.Gen.KernelIdeal.Skeleton
import proofs.«406289_j13400297963801_3_alg».proof.Proof.Gen.KernelIdeal.Points
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1000x128 := Rect.unit (s := S1000x128) ![0, 0] S1000x128.size inb_S1000x128_S1000x128_0_0

abbrev r2_1 : Rect S128 := Rect.unit (s := S128) ![0] S128.size inb_S128_S128_0

def out2_5 (x0 : Vec F S1000x128 .f32) (x1 x2 x3 x4 : Vec F S128 .f32) : Vec F S1000x128 .f32 :=
  View.canon [⟨r2_0, k2_pay1 (View.ld x0 r2_0) (View.ld x2 r2_1) (View.ld x1 r2_1) (View.ld x3 r2_1) (View.ld x4 r2_1)⟩]

theorem cover2_5 (p0 : Vec F S1000x128 .f32) (y : S1000x128.Idx) :
    ∃ pc ∈ ([⟨r2_0, p0⟩] : List (View.Piece (Elt F) S1000x128 .f32)), y ∈ pc.1.set :=
  View.cover_of_tiled [⟨r2_0, p0⟩] S1000x128.size (by rfl) y

set_option maxHeartbeats 1000000 in

theorem sound_kernel2 (c : Dev nD) (E : Set ℕ) (i : grid2.Coords) (arg1 : Memref sig .tc .vmem S1000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S1000x128 .f32) (harg6 : arg6.IsWhole)
    (x0 : Vec F S1000x128 .f32) (x1 x2 x3 x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm2_kernel i arg1 harg1 arg2 harg2 arg3 harg3 arg4 harg4 arg5 harg5 arg6 harg6) K := by
  simp only [cc2__norm2_kernel_eq_skeleton]; unfold cc2__norm2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]

theorem hout2 (c : Dev nD) : (dat2 V c).Φ (Fin.last cfg2.N) ⊢ Pipeline.ΦA spec2 c := by
  rw [show (dat2 V c).Φ (Fin.last cfg2.N) = Pipeline.ΦA spec2 c from rfl]

end Region2

end Cert.KernelIdeal.Fr

end
-- ==== Proof.KernelIdeal.Run3.lean ====
import proofs.«406289_j13400297963801_3_alg».proof.Proof.KernelIdeal.R0
import proofs.«406289_j13400297963801_3_alg».proof.Proof.KernelIdeal.R1
import proofs.«406289_j13400297963801_3_alg».proof.Proof.KernelIdeal.R2
import proofs.«406289_j13400297963801_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄)
        ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄)
        ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h.trans (hin2 (V5 m) c)
  hout c := by
    rw [Pipeline.ownSems0_none]
    have h : (Pipeline.ΦA spec2 c : sProp 𝕄)
        ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V5 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Fr

end
-- ==== Proof.KernelIdeal.Args.lean ====
import proofs.«406289_j13400297963801_3_alg».proof.Proof.KernelIdeal.Run3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W3_keep (c : Dev nD) (b : Ref sig .tc) (h : b ∉ hostOps1_W) :
    W3 m c (Proc.devRef .tc b) = W2 m c (Proc.devRef .tc b) :=
  StableHlo.after_of_writes_sub hostOps1 _ hostOps1_writes h
theorem W5_keep (c : Dev nD) (b : Ref sig .tc) (h : b ∉ hostOps2_W) :
    W5 m c (Proc.devRef .tc b) = W4 m c (Proc.devRef .tc b) :=
  StableHlo.after_of_writes_sub hostOps2 _ hostOps2_writes h

/-- A buffer that no stretch of host operations writes and no region writes back. -/
structure Kept (b : Ref sig .tc) : Prop where
  h0 : b ∉ hostOps0_W
  h1 : b ∉ hostOps1_W
  h2 : b ∉ hostOps2_W
  r0 : ∀ w, (cfg0.win w).isOut = true → Pipeline.arrRef spec0 w ≠ b
  r1 : ∀ w, (cfg1.win w).isOut = true → Pipeline.arrRef spec1 w ≠ b
  r2 : ∀ w, (cfg2.win w).isOut = true → Pipeline.arrRef spec2 w ≠ b

theorem kept0 : Kept main_arg0 := by constructor <;> decide
theorem kept1 : Kept main_arg1 := by constructor <;> decide
theorem kept2 : Kept main_arg2 := by constructor <;> decide
theorem kept3 : Kept main_arg3 := by constructor <;> decide
theorem kept4 : Kept main_arg4 := by constructor <;> decide
theorem kept5 : Kept main_arg5 := by constructor <;> decide
theorem kept6 : Kept main_arg6 := by constructor <;> decide
theorem kept7 : Kept main_arg7 := by constructor <;> decide
theorem kept8 : Kept main_arg8 := by constructor <;> decide
theorem kept9 : Kept main_arg9 := by constructor <;> decide
theorem kept10 : Kept main_arg10 := by constructor <;> decide
theorem kept11 : Kept main_arg11 := by constructor <;> decide
theorem kept12 : Kept main_arg12 := by constructor <;> decide

variable (c : Dev nD) {b : Ref sig .tc} (k : Kept b)
include k

theorem W1_kept : W1 m c (Proc.devRef .tc b) = m ((c : Thread nD τ).loc b) :=
  StableHlo.after_of_writes_sub hostOps0 _ hostOps0_writes k.h0

/-- A region leaves an array it only reads, and a buffer that is none of its arrays, as it found it. -/
theorem W2_kept : W2 m c (Proc.devRef .tc b) = m ((c : Thread nD τ).loc b) := by
  refine Eq.trans ?_ (W1_kept m c k)
  by_cases hb : ∃ w, Pipeline.arrRef spec0 w = b
  · obtain ⟨w, rfl⟩ := hb
    have hin : (cfg0.win w).isOut = false := Bool.eq_false_iff.mpr fun hw => k.r0 w hw rfl
    exact (W2_arr m c w).trans (((dat0 (V1 m) c).arrAt_in w hin _).trans (A_eq0 (V1 m) c w))
  · exact W2_of_ne m c b fun w hw => hb ⟨w, hw⟩

theorem W3_kept : W3 m c (Proc.devRef .tc b) = m ((c : Thread nD τ).loc b) :=
  (W3_keep m c b k.h1).trans (W2_kept m c k)

theorem W4_kept : W4 m c (Proc.devRef .tc b) = m ((c : Thread nD τ).loc b) := by
  refine Eq.trans ?_ (W3_kept m c k)
  by_cases hb : ∃ w, Pipeline.arrRef spec1 w = b
  · obtain ⟨w, rfl⟩ := hb
    have hin : (cfg1.win w).isOut = false := Bool.eq_false_iff.mpr fun hw => k.r1 w hw rfl
    exact (W4_arr m c w).trans (((dat1 (V3 m) c).arrAt_in w hin _).trans (A_eq1 (V3 m) c w))
  · exact W4_of_ne m c b fun w hw => hb ⟨w, hw⟩

theorem W5_kept : W5 m c (Proc.devRef .tc b) = m ((c : Thread nD τ).loc b) :=
  (W5_keep m c b k.h2).trans (W4_kept m c k)

theorem W6_kept : W6 m c (Proc.devRef .tc b) = m ((c : Thread nD τ).loc b) := by
  refine Eq.trans ?_ (W5_kept m c k)
  by_cases hb : ∃ w, Pipeline.arrRef spec2 w = b
  · obtain ⟨w, rfl⟩ := hb
    have hin : (cfg2.win w).isOut = false := Bool.eq_false_iff.mpr fun hw => k.r2 w hw rfl
    exact (W6_arr m c w).trans (((dat2 (V5 m) c).arrAt_in w hin _).trans (A_eq2 (V5 m) c w))
  · exact W6_of_ne m c b fun w hw => hb ⟨w, hw⟩

end Cert.KernelIdeal.Fr

end
-- ==== Proof.Value.Spec.lean ====
import Idealize.ShloMosaic.PureOps.Ideal
import Idealize.ShloMosaic.PureOps.Ideal.Laws
import Idealize.ShloMosaic.Lib.ValueIdx

noncomputable section

namespace Cert.KernelIdeal.Val

open Idealize.ShloMosaic Idealize.ShloMosaic.ValueIdx
open scoped BigOperators

def IsReal (x : EReal) : Prop := ∃ y : ℝ, x = (y : EReal)

abbrev at2 {R C : Nat} (a : (⟨2, ![R, C]⟩ : Shape).Idx → EReal) (r : Fin R) (k : Fin C) : EReal := a (ix2 r k)

abbrev at1 {C : Nat} (a : (⟨1, ![C]⟩ : Shape).Idx → EReal) (k : Fin C) : EReal := a (ix1 k)

def one : EReal := Ideal.ofBits .f32 0x3F800000#32
def epsBN : EReal := Ideal.ofBits .f32 0x3727C5AC#32
def nRows : EReal := Ideal.ofBits .f32 0x461C4000#32

def hin (node summed : Fin 10000 → Fin 128 → EReal) (deg : Fin 10000 → EReal) (eps : EReal)
    (r : Fin 10000) (k : Fin 128) : EReal :=
  (one + eps) * node r k + Ideal.div (summed r k) (max (deg r) one)

def lin {K N : Nat} (x : Fin 10000 → Fin K → EReal) (W : Fin K → Fin N → EReal) (b : Fin N → EReal)
    (r : Fin 10000) (j : Fin N) : EReal :=
  (∑ k : Fin K, x r k * W k j) + b j

def colSum {N : Nat} (h : Fin 10000 → Fin N → EReal) (j : Fin N) : EReal := ∑ r : Fin 10000, h r j
def colSumSq {N : Nat} (h : Fin 10000 → Fin N → EReal) (j : Fin N) : EReal := ∑ r : Fin 10000, h r j * h r j

def meanOf {N : Nat} (s : Fin N → EReal) (j : Fin N) : EReal := Ideal.div (s j) nRows

def varMoments {N : Nat} (s q : Fin N → EReal) (j : Fin N) : EReal :=
  Ideal.div (q j) nRows - meanOf s j * meanOf s j

def varDev {N : Nat} (h : Fin 10000 → Fin N → EReal) (mu : Fin N → EReal) (j : Fin N) : EReal :=
  Ideal.div (∑ r : Fin 10000, (h r j - mu j) * (h r j - mu j)) nRows

def bnRelu {N : Nat} (h : Fin 10000 → Fin N → EReal) (mu var gamma beta : Fin N → EReal)
    (r : Fin 10000) (j : Fin N) : EReal :=
  max ((h r j - mu j) * Ideal.rsqrt (var j + epsBN) * gamma j + beta j) 0

def tileRow (t : Fin 10) (r : Fin 1000) : Fin 10000 := ⟨1000 * t.val + r.val, by omega⟩

def tileSum {N : Nat} (h : Fin 10000 → Fin N → EReal) (t : Fin 10) (j : Fin N) : EReal := ∑ r : Fin 1000, h (tileRow t r) j
def tileSumSq {N : Nat} (h : Fin 10000 → Fin N → EReal) (t : Fin 10) (j : Fin N) : EReal :=
  ∑ r : Fin 1000, h (tileRow t r) j * h (tileRow t r) j

def runTotal {N : Nat} (f : Fin 10 → Fin N → EReal) : (n : Nat) → n ≤ 10 → Fin N → EReal
  | 0, _ => fun _ => 0
  | n + 1, hn => fun j => runTotal f n (Nat.le_of_succ_le hn) j + f ⟨n, hn⟩ j

section Layer

variable (node summed : Fin 10000 → Fin 128 → EReal) (deg : Fin 10000 → EReal) (eps : EReal)
  (W1 : Fin 128 → Fin 256 → EReal) (b1 gamma1 beta1 : Fin 256 → EReal)
  (W2 : Fin 256 → Fin 128 → EReal) (b2 gamma2 beta2 : Fin 128 → EReal)

def h1 : Fin 10000 → Fin 256 → EReal := lin (hin node summed deg eps) W1 b1
def mean1 : Fin 256 → EReal := meanOf (colSum (h1 node summed deg eps W1 b1))

def var1M : Fin 256 → EReal := varMoments (colSum (h1 node summed deg eps W1 b1)) (colSumSq (h1 node summed deg eps W1 b1))

def var1D : Fin 256 → EReal := varDev (h1 node summed deg eps W1 b1) (mean1 node summed deg eps W1 b1)

def h2 (v : Fin 256 → EReal) : Fin 10000 → Fin 128 → EReal :=
  lin (bnRelu (h1 node summed deg eps W1 b1) (mean1 node summed deg eps W1 b1) v gamma1 beta1) W2 b2
def mean2 (v : Fin 256 → EReal) : Fin 128 → EReal := meanOf (colSum (h2 node summed deg eps W1 b1 gamma1 beta1 W2 b2 v))

def outM : Fin 10000 → Fin 128 → EReal :=
  let v1 := var1M node summed deg eps W1 b1
  let g := h2 node summed deg eps W1 b1 gamma1 beta1 W2 b2 v1
  bnRelu g (meanOf (colSum g)) (varMoments (colSum g) (colSumSq g)) gamma2 beta2

def outD : Fin 10000 → Fin 128 → EReal :=
  let v1 := var1D node summed deg eps W1 b1
  let g := h2 node summed deg eps W1 b1 gamma1 beta1 W2 b2 v1
  bnRelu g (meanOf (colSum g)) (varDev g (meanOf (colSum g))) gamma2 beta2

end Layer

end Cert.KernelIdeal.Val

end
-- ==== Proof.Value.Math.lean ====
import proofs.«406289_j13400297963801_3_alg».proof.Proof.Value.Spec
import Mathlib.Data.EReal.Basic
import Mathlib.Data.EReal.Operations
import Mathlib.Data.EReal.Inv
import Mathlib.Algebra.BigOperators.Fin
import Mathlib.Algebra.BigOperators.Ring.Finset
import Mathlib.Algebra.Order.BigOperators.Ring.Finset
import Mathlib.Tactic.Ring
import Mathlib.Tactic.FieldSimp
import Mathlib.Tactic.NormNum
import Mathlib.Tactic.Positivity

noncomputable section

namespace Cert.KernelIdeal.Val

open Idealize.ShloMosaic
open scoped BigOperators

theorem one_eq : one = ((1 : ℝ) : EReal) := by
  unfold one
  simp [Ideal.ofBits, Ideal.ieee, -EReal.coe_mul]; norm_num

theorem nRows_eq : nRows = ((10000 : ℝ) : EReal) := by
  unfold nRows
  simp [Ideal.ofBits, Ideal.ieee, -EReal.coe_mul]; norm_num

theorem epsBN_pos : ∃ e : ℝ, 0 < e ∧ epsBN = (e : EReal) := by
  unfold epsBN
  simp [Ideal.ofBits, Ideal.ieee, -EReal.coe_mul]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def tileEquiv : Fin 10 × Fin 1000 ≃ Fin 10000 where
  toFun p := tileRow p.1 p.2
  invFun i := (⟨i.val / 1000, by omega⟩, ⟨i.val % 1000, by omega⟩)
  left_inv := by
    rintro ⟨⟨t, ht⟩, ⟨r, hr⟩⟩
    refine Prod.ext (Fin.ext ?_) (Fin.ext ?_)
    · show (1000 * t + r) / 1000 = t; omega
    · show (1000 * t + r) % 1000 = r; omega
  right_inv := by
    rintro ⟨i, hi⟩
    refine Fin.ext ?_
    show 1000 * (i / 1000) + i % 1000 = i; omega

theorem sum_rows_eq_sum_tiles (g : Fin 10000 → EReal) :
    ∑ t : Fin 10, ∑ r : Fin 1000, g (tileRow t r) = ∑ i : Fin 10000, g i := by
  rw [← Equiv.sum_comp tileEquiv g, Fintype.sum_prod_type]
  rfl

theorem runTotal_eq_sum {N : Nat} (f : Fin 10 → Fin N → EReal) (j : Fin N) :
    ∀ (n : Nat) (hn : n ≤ 10), runTotal f n hn j = ∑ t : Fin n, f (Fin.castLE hn t) j
  | 0, _ => by simp [runTotal]
  | n + 1, hn => by
    show runTotal f n (Nat.le_of_succ_le hn) j + f ⟨n, hn⟩ j = _
    rw [runTotal_eq_sum f j n (Nat.le_of_succ_le hn), Fin.sum_univ_castSucc]
    rfl

theorem runTotal_ten {N : Nat} (f : Fin 10 → Fin N → EReal) (j : Fin N) :
    runTotal f 10 le_rfl j = ∑ t : Fin 10, f t j := by
  rw [runTotal_eq_sum]
  exact Finset.sum_congr rfl fun t _ => by rw [Fin.castLE_rfl]; rfl

theorem runTotal_tileSum {N : Nat} (h : Fin 10000 → Fin N → EReal) (j : Fin N) :
    runTotal (tileSum h) 10 le_rfl j = colSum h j := by
  rw [runTotal_ten]
  exact sum_rows_eq_sum_tiles fun i => h i j

theorem runTotal_tileSumSq {N : Nat} (h : Fin 10000 → Fin N → EReal) (j : Fin N) :
    runTotal (tileSumSq h) 10 le_rfl j = colSumSq h j := by
  rw [runTotal_ten]
  exact sum_rows_eq_sum_tiles fun i => h i j * h i j

theorem runTotal_of_steps {N : Nat} (f : Fin 10 → Fin N → EReal) (s : (n : ℕ) → n < 10 → Fin N → EReal)
    (h0 : ∀ (h : 0 < 10) j, s 0 h j = 0 + f ⟨0, h⟩ j)
    (hs : ∀ n (hn : n + 1 < 10) j, s (n + 1) hn j = s n (Nat.lt_of_succ_lt hn) j + f ⟨n + 1, hn⟩ j) :
    ∀ n (hn : n < 10) j, s n hn j = runTotal f (n + 1) hn j
  | 0, hn, j => (h0 hn j).trans rfl
  | n + 1, hn, j => by
    rw [hs n hn j, runTotal_of_steps f s h0 hs n (Nat.lt_of_succ_lt hn) j]
    rfl

theorem div_nRows (x : EReal) : Ideal.div x nRows = x * ((1 / 10000 : ℝ) : EReal) := by
  rw [nRows_eq]; exact Ideal.div_coe (by norm_num) x

theorem real_var_identity (x : Fin 10000 → ℝ) :
    (∑ r, x r * x r) * (1 / 10000) - ((∑ r, x r) * (1 / 10000)) * ((∑ r, x r) * (1 / 10000))
      = (∑ r, (x r - (∑ r, x r) * (1 / 10000)) * (x r - (∑ r, x r) * (1 / 10000))) * (1 / 10000) := by
  generalize hS : ∑ r, x r = S
  generalize hμ : S * (1 / 10000) = μ
  have h1 : ∀ r, (x r - μ) * (x r - μ) = x r * x r - (2 * μ) * x r + μ * μ := fun r => by ring
  have h2 : ∑ r : Fin 10000, (x r - μ) * (x r - μ) = (∑ r, x r * x r) - (2 * μ) * S + 10000 * (μ * μ) := by
    rw [Finset.sum_congr rfl fun r _ => h1 r, Finset.sum_add_distrib, Finset.sum_sub_distrib, ← Finset.mul_sum,
      Finset.sum_const, Finset.card_univ, Fintype.card_fin, nsmul_eq_mul, hS]
    norm_num
  rw [h2, ← hμ]; ring

section Column

variable {N : Nat} (h : Fin 10000 → Fin N → EReal) (j : Fin N) (x : Fin 10000 → ℝ) (hx : ∀ r, h r j = (x r : EReal))
include hx

theorem colSum_coe : colSum h j = ((∑ r, x r : ℝ) : EReal) := by
  rw [coe_sum]; exact Finset.sum_congr rfl fun r _ => hx r

theorem colSumSq_coe : colSumSq h j = ((∑ r, x r * x r : ℝ) : EReal) := by
  rw [coe_sum]; exact Finset.sum_congr rfl fun r _ => by rw [hx r, EReal.coe_mul]

theorem meanOf_colSum_coe : meanOf (colSum h) j = (((∑ r, x r) * (1 / 10000) : ℝ) : EReal) := by
  unfold meanOf; rw [div_nRows, colSum_coe h j x hx, ← EReal.coe_mul]

theorem varMoments_coe : varMoments (colSum h) (colSumSq h) j
    = (((∑ r, x r * x r) * (1 / 10000) - ((∑ r, x r) * (1 / 10000)) * ((∑ r, x r) * (1 / 10000)) : ℝ) : EReal) := by
  unfold varMoments
  rw [meanOf_colSum_coe h j x hx, div_nRows, colSumSq_coe h j x hx, EReal.coe_sub,
    EReal.coe_mul (∑ r, x r * x r) (1 / 10000),
    EReal.coe_mul ((∑ r, x r) * (1 / 10000)) ((∑ r, x r) * (1 / 10000))]

theorem varDev_coe : varDev h (meanOf (colSum h)) j
    = (((∑ r, (x r - (∑ r, x r) * (1 / 10000)) * (x r - (∑ r, x r) * (1 / 10000))) * (1 / 10000) : ℝ) : EReal) := by
  unfold varDev
  rw [meanOf_colSum_coe h j x hx, div_nRows]
  have hs : ∑ r : Fin 10000, (h r j - (((∑ r, x r) * (1 / 10000) : ℝ) : EReal)) * (h r j - (((∑ r, x r) * (1 / 10000) : ℝ) : EReal))
      = ((∑ r, (x r - (∑ r, x r) * (1 / 10000)) * (x r - (∑ r, x r) * (1 / 10000)) : ℝ) : EReal) := by
    rw [coe_sum]
    exact Finset.sum_congr rfl fun r _ => by rw [hx r, ← EReal.coe_sub, ← EReal.coe_mul]
  rw [hs, ← EReal.coe_mul]

end Column

theorem varMoments_eq_varDev {N : Nat} (h : Fin 10000 → Fin N → EReal) (hr : ∀ r j, IsReal (h r j)) (j : Fin N) :
    varMoments (colSum h) (colSumSq h) j = varDev h (meanOf (colSum h)) j := by
  choose x hx using fun r => hr r j
  rw [varMoments_coe h j x hx, varDev_coe h j x hx, real_var_identity]

theorem varDev_real_nonneg {N : Nat} (h : Fin 10000 → Fin N → EReal) (hr : ∀ r j, IsReal (h r j)) (j : Fin N) :
    ∃ v : ℝ, 0 ≤ v ∧ varDev h (meanOf (colSum h)) j = (v : EReal) := by
  choose x hx using fun r => hr r j
  exact ⟨_, mul_nonneg (Finset.sum_nonneg fun r _ => mul_self_nonneg _) (by norm_num), varDev_coe h j x hx⟩

theorem IsReal.zero : IsReal 0 := ⟨0, EReal.coe_zero.symm⟩
theorem IsReal.coe (y : ℝ) : IsReal (y : EReal) := ⟨y, rfl⟩
theorem IsReal.one : IsReal one := ⟨1, one_eq⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (max a b) := by
  obtain ⟨x, rfl⟩ := ha; obtain ⟨y, rfl⟩ := hb
  exact ⟨Max.max x y, (EReal.coe_strictMono.monotone.map_max).symm⟩

theorem IsReal.sum {ι : Type*} (s : Finset ι) (f : ι → EReal) (hf : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (hf a (Finset.mem_insert_self a s)).add (ih fun i hi => hf i (Finset.mem_insert_of_mem hi))

theorem IsReal.div_coe {a : EReal} (ha : IsReal a) {y : ℝ} (hy : y ≠ 0) : IsReal (Ideal.div a (y : EReal)) := by
  rw [Ideal.div_coe hy]; exact ha.mul (IsReal.coe _)

theorem hin_real (node summed : Fin 10000 → Fin 128 → EReal) (deg : Fin 10000 → EReal) (eps : EReal)
    (hnode : ∀ r k, IsReal (node r k)) (hsummed : ∀ r k, IsReal (summed r k)) (hdeg : ∀ r, IsReal (deg r))
    (heps : IsReal eps) (r : Fin 10000) (k : Fin 128) : IsReal (hin node summed deg eps r k) := by
  unfold hin
  obtain ⟨d, hd⟩ := hdeg r
  have hmax : Max.max (deg r) one = ((Max.max d 1 : ℝ) : EReal) := by
    rw [hd, one_eq]; exact (EReal.coe_strictMono.monotone.map_max).symm
  have hne : (Max.max d 1 : ℝ) ≠ 0 := ne_of_gt (lt_of_lt_of_le one_pos (le_max_right d 1))
  rw [hmax]
  exact ((IsReal.one.add heps).mul (hnode r k)).add ((hsummed r k).div_coe hne)

theorem lin_real {K N : Nat} (x : Fin 10000 → Fin K → EReal) (W : Fin K → Fin N → EReal) (b : Fin N → EReal)
    (hx : ∀ r k, IsReal (x r k)) (hW : ∀ k j, IsReal (W k j)) (hb : ∀ j, IsReal (b j))
    (r : Fin 10000) (j : Fin N) : IsReal (lin x W b r j) := by
  unfold lin
  exact (IsReal.sum _ _ fun k _ => (hx r k).mul (hW k j)).add (hb j)

theorem colSum_real {N : Nat} (h : Fin 10000 → Fin N → EReal) (hr : ∀ r j, IsReal (h r j)) (j : Fin N) :
    IsReal (colSum h j) :=
  IsReal.sum _ _ fun r _ => hr r j

theorem meanOf_real {N : Nat} (s : Fin N → EReal) (hs : ∀ j, IsReal (s j)) (j : Fin N) : IsReal (meanOf s j) := by
  unfold meanOf; rw [div_nRows]; exact (hs j).mul (IsReal.coe _)

theorem bnRelu_real {N : Nat} (h : Fin 10000 → Fin N → EReal) (mu var gamma beta : Fin N → EReal)
    (hh : ∀ r j, IsReal (h r j)) (hmu : ∀ j, IsReal (mu j)) (hvar : ∀ j, ∃ v : ℝ, 0 ≤ v ∧ var j = (v : EReal))
    (hg : ∀ j, IsReal (gamma j)) (hbe : ∀ j, IsReal (beta j)) (r : Fin 10000) (j : Fin N) :
    IsReal (bnRelu h mu var gamma beta r j) := by
  unfold bnRelu
  obtain ⟨v, hv0, hv⟩ := hvar j
  obtain ⟨e, he0, he⟩ := epsBN_pos
  have hpos : 0 < v + e := add_pos_of_nonneg_of_pos hv0 he0
  have hrs : IsReal (Ideal.rsqrt (var j + epsBN)) := by
    rw [hv, he, ← EReal.coe_add, Ideal.rsqrt_coe, if_neg (not_lt.mpr hpos.le), if_neg hpos.ne']
    exact IsReal.coe _
  exact ((((hh r j).sub (hmu j)).mul hrs).mul (hg j) |>.add (hbe j)).max IsReal.zero

theorem outM_eq_outD (node summed : Fin 10000 → Fin 128 → EReal) (deg : Fin 10000 → EReal) (eps : EReal)
    (W1 : Fin 128 → Fin 256 → EReal) (b1 gamma1 beta1 : Fin 256 → EReal)
    (W2 : Fin 256 → Fin 128 → EReal) (b2 gamma2 beta2 : Fin 128 → EReal)
    (hnode : ∀ r k, IsReal (node r k)) (hsummed : ∀ r k, IsReal (summed r k)) (hdeg : ∀ r, IsReal (deg r)) (heps : IsReal eps)
    (hW1 : ∀ k j, IsReal (W1 k j)) (hb1 : ∀ j, IsReal (b1 j)) (hg1 : ∀ j, IsReal (gamma1 j)) (hbe1 : ∀ j, IsReal (beta1 j))
    (hW2 : ∀ k j, IsReal (W2 k j)) (hb2 : ∀ j, IsReal (b2 j)) (hg2 : ∀ j, IsReal (gamma2 j)) (hbe2 : ∀ j, IsReal (beta2 j)) :
    outM node summed deg eps W1 b1 gamma1 beta1 W2 b2 gamma2 beta2
      = outD node summed deg eps W1 b1 gamma1 beta1 W2 b2 gamma2 beta2 := by

  have hh1 : ∀ r j, IsReal (h1 node summed deg eps W1 b1 r j) :=
    lin_real _ W1 b1 (hin_real node summed deg eps hnode hsummed hdeg heps) hW1 hb1

  have hv1 : var1M node summed deg eps W1 b1 = var1D node summed deg eps W1 b1 :=
    funext fun j => varMoments_eq_varDev _ hh1 j

  have hh2 : ∀ r j, IsReal (h2 node summed deg eps W1 b1 gamma1 beta1 W2 b2 (var1D node summed deg eps W1 b1) r j) :=
    lin_real _ W2 b2
      (bnRelu_real _ _ _ gamma1 beta1 hh1 (meanOf_real _ (colSum_real _ hh1))
        (fun j => varDev_real_nonneg _ hh1 j) hg1 hbe1) hW2 hb2

  have hv2 := funext fun j => varMoments_eq_varDev _ hh2 j
  unfold outM outD
  rw [hv1]
  exact congrArg (fun v => bnRelu _ _ v gamma2 beta2) hv2

end Cert.KernelIdeal.Val

end
-- ==== Proof.Value.Host.lean ====
import proofs.«406289_j13400297963801_3_alg».proof.Proof.Gen.KernelIdeal.Launch
import proofs.«406289_j13400297963801_3_alg».proof.Proof.Gen.KernelIdeal.Regions
import proofs.«406289_j13400297963801_3_alg».proof.Proof.Gen.ReferenceIdeal.Read
import proofs.«406289_j13400297963801_3_alg».proof.Proof.Value.Spec
import Idealize.ShloMosaic.Lib.StableHlo.Run
import Idealize.ShloMosaic.Lib.IdealHost
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx Idealize.ShloMosaic.StableHlo

def wrapK (x11 : (⟨S640000, .i32⟩ : BufTy).Contents (Elt Ideal)) : (⟨S640000, .i32⟩ : BufTy).Contents (Elt Ideal) :=
  select
    (cmpi .slt x11 (broadcastInDim (s := S_) S640000 ![] bcast_S_S640000 (constantI S_ 32 0#32)))
    (addi x11 (broadcastInDim (s := S_) S640000 ![] bcast_S_S640000 (constantI S_ 32 10000#32)))
    x11

def msgK (x0 : (⟨S10000x128, .f32⟩ : BufTy).Contents (Elt Ideal)) (x1 : (⟨S640000x128, .f32⟩ : BufTy).Contents (Elt Ideal))
    (x11 : (⟨S640000, .i32⟩ : BufTy).Contents (Elt Ideal)) : (⟨S640000x128, .f32⟩ : BufTy).Contents (Elt Ideal) :=
  addf (F := Ideal) (s := S640000x128) (φ := .f32)
    (Host.gather gather_S10000x128_S640000x1_S640000x128_1_0_n_n_0_1_1128 x0
      (broadcastInDim (s := S640000) S640000x1 ![0] bcast_S640000_S640000x1_0 (wrapK x11)))
    x1

def summedK (x0 : (⟨S10000x128, .f32⟩ : BufTy).Contents (Elt Ideal)) (x1 : (⟨S640000x128, .f32⟩ : BufTy).Contents (Elt Ideal))
    (x11 x12 : (⟨S640000, .i32⟩ : BufTy).Contents (Elt Ideal)) : (⟨S10000x128, .f32⟩ : BufTy).Contents (Elt Ideal) :=
  Host.scatterAdd (F := Ideal) scatter_S10000x128_S640000x1_S640000x128_1_0_0_1
    (broadcastInDim (s := S_) S10000x128 ![] bcast_S_S10000x128 (constant (F := Ideal) S_ .f32 0x00000000#32))
    (broadcastInDim (s := S640000) S640000x1 ![0] bcast_S640000_S640000x1_0 x12)
    (msgK x0 x1 x11)

def degK (x12 : (⟨S640000, .i32⟩ : BufTy).Contents (Elt Ideal)) : (⟨S10000, .f32⟩ : BufTy).Contents (Elt Ideal) :=
  Host.scatterAdd (F := Ideal) scatter_S10000_S640000x1_S640000_n_0_0_1
    (broadcastInDim (s := S_) S10000 ![] bcast_S_S10000 (constant (F := Ideal) S_ .f32 0x00000000#32))
    (broadcastInDim (s := S640000) S640000x1 ![0] bcast_S640000_S640000x1_0 x12)
    (broadcastInDim (s := S_) S640000 ![] bcast_S_S640000 (constant (F := Ideal) S_ .f32 0x3F800000#32))

theorem summedK_eq_ref (x0 : (⟨S10000x128, .f32⟩ : BufTy).Contents (Elt Ideal)) (x1 : (⟨S640000x128, .f32⟩ : BufTy).Contents (Elt Ideal))
    (x11 x12 : (⟨S640000, .i32⟩ : BufTy).Contents (Elt Ideal)) :
    summedK x0 x1 x11 x12 = Cert.ReferenceIdeal.Read.val_main_v10 (F := Ideal) x0 x1 x11 x12 := rfl

theorem degK_eq_ref (x12 : (⟨S640000, .i32⟩ : BufTy).Contents (Elt Ideal)) :
    degK x12 = Cert.ReferenceIdeal.Read.val_main_v14 (F := Ideal) x12 := rfl

theorem after0_v10 (W : Valuation τ sig (Elt Ideal)) :
    StableHlo.after hostOps0 W (Proc.devRef .tc main_v10)
      = summedK (W (Proc.devRef .tc main_arg0)) (W (Proc.devRef .tc main_arg1)) (W (Proc.devRef .tc main_arg11)) (W (Proc.devRef .tc main_arg12)) := by
  after_results
  rfl

theorem after0_keep (W : Valuation τ sig (Elt Ideal)) (b : Ref sig .tc) (h : b ∉ hostOps0_W) :
    StableHlo.after hostOps0 W (Proc.devRef .tc b) = W (Proc.devRef .tc b) :=
  StableHlo.after_of_writes_sub hostOps0 W hostOps0_writes h

theorem after1_keep (W : Valuation τ sig (Elt Ideal)) (b : Ref sig .tc) (h : b ∉ hostOps1_W) :
    StableHlo.after hostOps1 W (Proc.devRef .tc b) = W (Proc.devRef .tc b) :=
  StableHlo.after_of_writes_sub hostOps1 W hostOps1_writes h

theorem after2_keep (W : Valuation τ sig (Elt Ideal)) (b : Ref sig .tc) (h : b ∉ hostOps2_W) :
    StableHlo.after hostOps2 W (Proc.devRef .tc b) = W (Proc.devRef .tc b) :=
  StableHlo.after_of_writes_sub hostOps2 W hostOps2_writes h

theorem after0_v15 (W : Valuation τ sig (Elt Ideal)) (r : Fin 10000) :
    (StableHlo.after hostOps0 W (Proc.devRef .tc main_v15) : (⟨S10000x1, .f32⟩ : BufTy).Contents (Elt Ideal)) (ix2 r 0)
      = degK (W (Proc.devRef .tc main_arg12)) (ix1 r) := by
  have e : (StableHlo.after hostOps0 W (Proc.devRef .tc main_v15) : (⟨S10000x1, .f32⟩ : BufTy).Contents (Elt Ideal))
      = broadcastInDim (s := S10000) S10000x1 ![0] bcast_S10000_S10000x1_0 (degK (W (Proc.devRef .tc main_arg12))) := by
    after_results
    rfl
  rw [e]
  exact broadcastInDim_apply _ bcast_S10000_S10000x1_0 _ (ix2 r 0) (ix1 r) (fun a => match a with
    | ⟨0, _⟩ => by show r.val = if (10000 : Nat) = 1 then 0 else r.val; rw [if_neg (by decide)])

theorem after0_v16 (W : Valuation τ sig (Elt Ideal)) :
    (StableHlo.after hostOps0 W (Proc.devRef .tc main_v16) : (⟨S1x1, .f32⟩ : BufTy).Contents (Elt Ideal)) (ix2 0 0)
      = (W (Proc.devRef .tc main_arg2) : (⟨S1, .f32⟩ : BufTy).Contents (Elt Ideal)) (ix1 0) := by
  have e : (StableHlo.after hostOps0 W (Proc.devRef .tc main_v16) : (⟨S1x1, .f32⟩ : BufTy).Contents (Elt Ideal))
      = shapeCast S1x1 (W (Proc.devRef .tc main_arg2) : (⟨S1, .f32⟩ : BufTy).Contents (Elt Ideal)) shapeCasts_S1_S1x1 := by
    after_results
    rfl
  rw [e]
  exact shapeCast_a_1a_apply _ _ 0 0

theorem divRows_apply {N : Nat} (x : (⟨2, ![1, N]⟩ : Shape).Idx → EReal) (h : (⟨2, ![1, N]⟩ : Shape).ShapeCasts ⟨1, ![N]⟩)
    (hb : (⟨0, ![]⟩ : Shape).BroadcastsInDim ⟨1, ![N]⟩ ![]) (j : Fin N) :
    Host.divf (F := Ideal) (φ := .f32) (shapeCast ⟨1, ![N]⟩ x h)
        (broadcastInDim (s := ⟨0, ![]⟩) ⟨1, ![N]⟩ ![] hb (constant (F := Ideal) ⟨0, ![]⟩ .f32 0x461C4000#32)) (ix1 j)
      = Ideal.div (x (ix2 0 j)) nRows := by
  rw [hostDivf_apply, shapeCast_1a_a_apply, broadcastInDim_scalar_apply]
  rfl

theorem after1_v20 (W : Valuation τ sig (Elt Ideal)) (j : Fin 256) :
    (StableHlo.after hostOps1 W (Proc.devRef .tc main_v20) : (⟨S256, .f32⟩ : BufTy).Contents (Elt Ideal)) (ix1 j)
      = Ideal.div ((W (Proc.devRef .tc main_v17_1) : (⟨S1x256, .f32⟩ : BufTy).Contents (Elt Ideal)) (ix2 0 j)) nRows := by
  have e : (StableHlo.after hostOps1 W (Proc.devRef .tc main_v20) : (⟨S256, .f32⟩ : BufTy).Contents (Elt Ideal))
      = Host.divf (F := Ideal) (φ := .f32)
          (shapeCast S256 (W (Proc.devRef .tc main_v17_1) : (⟨S1x256, .f32⟩ : BufTy).Contents (Elt Ideal)) shapeCasts_S1x256_S256)
          (broadcastInDim (s := S_) S256 ![] bcast_S_S256 (constant (F := Ideal) S_ .f32 0x461C4000#32)) := by
    after_results
    rfl
  rw [e]
  exact divRows_apply _ _ _ j

theorem after1_v25 (W : Valuation τ sig (Elt Ideal)) (j : Fin 256) :
    (StableHlo.after hostOps1 W (Proc.devRef .tc main_v25) : (⟨S256, .f32⟩ : BufTy).Contents (Elt Ideal)) (ix1 j)
      = Ideal.div ((W (Proc.devRef .tc main_v17_2) : (⟨S1x256, .f32⟩ : BufTy).Contents (Elt Ideal)) (ix2 0 j)) nRows
        - Ideal.div ((W (Proc.devRef .tc main_v17_1) : (⟨S1x256, .f32⟩ : BufTy).Contents (Elt Ideal)) (ix2 0 j)) nRows
          * Ideal.div ((W (Proc.devRef .tc main_v17_1) : (⟨S1x256, .f32⟩ : BufTy).Contents (Elt Ideal)) (ix2 0 j)) nRows := by
  have e : (StableHlo.after hostOps1 W (Proc.devRef .tc main_v25) : (⟨S256, .f32⟩ : BufTy).Contents (Elt Ideal))
      = subf (F := Ideal) (s := S256) (φ := .f32)
          (Host.divf (F := Ideal) (φ := .f32)
            (shapeCast S256 (W (Proc.devRef .tc main_v17_2) : (⟨S1x256, .f32⟩ : BufTy).Contents (Elt Ideal)) shapeCasts_S1x256_S256)
            (broadcastInDim (s := S_) S256 ![] bcast_S_S256 (constant (F := Ideal) S_ .f32 0x461C4000#32)))
          (mulf (F := Ideal) (s := S256) (φ := .f32)
            (Host.divf (F := Ideal) (φ := .f32)
              (shapeCast S256 (W (Proc.devRef .tc main_v17_1) : (⟨S1x256, .f32⟩ : BufTy).Contents (Elt Ideal)) shapeCasts_S1x256_S256)
              (broadcastInDim (s := S_) S256 ![] bcast_S_S256 (constant (F := Ideal) S_ .f32 0x461C4000#32)))
            (Host.divf (F := Ideal) (φ := .f32)
              (shapeCast S256 (W (Proc.devRef .tc main_v17_1) : (⟨S1x256, .f32⟩ : BufTy).Contents (Elt Ideal)) shapeCasts_S1x256_S256)
              (broadcastInDim (s := S_) S256 ![] bcast_S_S256 (constant (F := Ideal) S_ .f32 0x461C4000#32)))) := by
    after_results
    rfl
  rw [e]
  show _ - _ * _ = _
  rw [divRows_apply, divRows_apply]

theorem after2_v29 (W : Valuation τ sig (Elt Ideal)) (j : Fin 128) :
    (StableHlo.after hostOps2 W (Proc.devRef .tc main_v29) : (⟨S128, .f32⟩ : BufTy).Contents (Elt Ideal)) (ix1 j)
      = Ideal.div ((W (Proc.devRef .tc main_v26_1) : (⟨S1x128, .f32⟩ : BufTy).Contents (Elt Ideal)) (ix2 0 j)) nRows := by
  have e : (StableHlo.after hostOps2 W (Proc.devRef .tc main_v29) : (⟨S128, .f32⟩ : BufTy).Contents (Elt Ideal))
      = Host.divf (F := Ideal) (φ := .f32)
          (shapeCast S128 (W (Proc.devRef .tc main_v26_1) : (⟨S1x128, .f32⟩ : BufTy).Contents (Elt Ideal)) shapeCasts_S1x128_S128)
          (broadcastInDim (s := S_) S128 ![] bcast_S_S128 (constant (F := Ideal) S_ .f32 0x461C4000#32)) := by
    after_results
    rfl
  rw [e]
  exact divRows_apply _ _ _ j

theorem after2_v34 (W : Valuation τ sig (Elt Ideal)) (j : Fin 128) :
    (StableHlo.after hostOps2 W (Proc.devRef .tc main_v34) : (⟨S128, .f32⟩ : BufTy).Contents (Elt Ideal)) (ix1 j)
      = Ideal.div ((W (Proc.devRef .tc main_v26_2) : (⟨S1x128, .f32⟩ : BufTy).Contents (Elt Ideal)) (ix2 0 j)) nRows
        - Ideal.div ((W (Proc.devRef .tc main_v26_1) : (⟨S1x128, .f32⟩ : BufTy).Contents (Elt Ideal)) (ix2 0 j)) nRows
          * Ideal.div ((W (Proc.devRef .tc main_v26_1) : (⟨S1x128, .f32⟩ : BufTy).Contents (Elt Ideal)) (ix2 0 j)) nRows := by
  have e : (StableHlo.after hostOps2 W (Proc.devRef .tc main_v34) : (⟨S128, .f32⟩ : BufTy).Contents (Elt Ideal))
      = subf (F := Ideal) (s := S128) (φ := .f32)
          (Host.divf (F := Ideal) (φ := .f32)
            (shapeCast S128 (W (Proc.devRef .tc main_v26_2) : (⟨S1x128, .f32⟩ : BufTy).Contents (Elt Ideal)) shapeCasts_S1x128_S128)
            (broadcastInDim (s := S_) S128 ![] bcast_S_S128 (constant (F := Ideal) S_ .f32 0x461C4000#32)))
          (mulf (F := Ideal) (s := S128) (φ := .f32)
            (Host.divf (F := Ideal) (φ := .f32)
              (shapeCast S128 (W (Proc.devRef .tc main_v26_1) : (⟨S1x128, .f32⟩ : BufTy).Contents (Elt Ideal)) shapeCasts_S1x128_S128)
              (broadcastInDim (s := S_) S128 ![] bcast_S_S128 (constant (F := Ideal) S_ .f32 0x461C4000#32)))
            (Host.divf (F := Ideal) (φ := .f32)
              (shapeCast S128 (W (Proc.devRef .tc main_v26_1) : (⟨S1x128, .f32⟩ : BufTy).Contents (Elt Ideal)) shapeCasts_S1x128_S128)
              (broadcastInDim (s := S_) S128 ![] bcast_S_S128 (constant (F := Ideal) S_ .f32 0x461C4000#32)))) := by
    after_results
    rfl
  rw [e]
  show _ - _ * _ = _
  rw [divRows_apply, divRows_apply]

end Cert.KernelIdeal.Val

end
-- ==== Proof.Value.Finite.lean ====
import proofs.«406289_j13400297963801_3_alg».proof.Defs
import proofs.«406289_j13400297963801_3_alg».proof.Proof.Gen.Pre_finite_inputs
import proofs.«406289_j13400297963801_3_alg».proof.Proof.Value.Spec
import proofs.«406289_j13400297963801_3_alg».proof.Proof.Value.Host
import Idealize.ShloMosaic.Lib.ReduceAll
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx Idealize.ShloMosaic.StableHlo
open scoped BigOperators

theorem fin_real_zero : IsReal 0 := ⟨0, EReal.coe_zero.symm⟩

theorem fin_real_add {a b : EReal} (ha : IsReal a) (hb : IsReal b) : IsReal (a + b) := by
  obtain ⟨ya, rfl⟩ := ha
  obtain ⟨yb, rfl⟩ := hb
  exact ⟨ya + yb, (EReal.coe_add ya yb).symm⟩

theorem fin_real_sum {ι : Type*} (s : Finset ι) (f : ι → EReal) (hf : ∀ i ∈ s, IsReal (f i)) : IsReal (∑ i ∈ s, f i) :=
  Finset.sum_induction f IsReal (fun _ _ => fin_real_add) fin_real_zero hf

theorem inf_word : Ideal.ofBits .f32 0x7F800000#32 = (⊤ : EReal) := by simp [Ideal.ofBits, Ideal.ieee]

theorem ieee_real (e m : Nat) {w : Nat} (b : BitVec w) (h : (b.extractLsb' m e).toNat ≠ 2 ^ e - 1) :
    IsReal (Ideal.ieee e m b) := by
  unfold Ideal.ieee
  dsimp only
  rw [if_neg h]
  split_ifs <;> exact ⟨_, rfl⟩

theorem one_word_real : IsReal (Ideal.ofBits .f32 0x3F800000#32) :=
  ieee_real 8 23 (0x3F800000#32 : BitVec 32) (by decide)

theorem isReal_of_abs_lt_inf (x : EReal)
    (h : Ideal.cmp .olt (max x (-x)) (Ideal.ofBits .f32 0x7F800000#32) = 1#1) : IsReal x := by
  rw [inf_word] at h
  have h' : BitVec.ofBool (decide (max x (-x) < (⊤ : EReal))) = 1#1 := h
  have hlt : max x (-x) < (⊤ : EReal) := by
    by_cases hd : max x (-x) < (⊤ : EReal)
    · exact hd
    · exact absurd h' (by simp [hd])
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

theorem bcastConst_at {t : Shape} (hb : (⟨0, ![]⟩ : Shape).BroadcastsInDim t (![] : Fin 0 → Fin t.rank))
    (w : BitVec (FTy.bits .f32)) (j : t.Idx) :
    broadcastInDim t ![] hb (constant (F := Ideal) ⟨0, ![]⟩ .f32 w) j = Ideal.ofBits .f32 w :=
  broadcastInDim_apply _ hb _ j ix0 (fun a => a.elim0)

theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1) :
    ∀ i, IsReal (x i) := by
  intro i
  have ei := Host.reduce_andi_all _ _ hr hu ix0 e i
  have ei' : Ideal.cmp .olt (max (x i) (-(x i)))
      (broadcastInDim s ![] hb (constant (F := Ideal) ⟨0, ![]⟩ .f32 0x7F800000#32) i) = 1#1 := ei
  rw [bcastConst_at] at ei'
  exact isReal_of_abs_lt_inf (x i) ei'

theorem pre_real [Cert.Pre_finite_inputs.Facts] (m : (ℓ : Loc nD τ sig) → Buf (Elt Ideal) ℓ) (h : Cert.Pre_KernelIdeal m) (c : Dev nD) :
    (∀ i, IsReal (m ((c.tc : Thread nD τ).loc main_arg0) i))
      ∧ (∀ i, IsReal (m ((c.tc : Thread nD τ).loc main_arg1) i))
      ∧ (∀ i, IsReal (m ((c.tc : Thread nD τ).loc main_arg2) i))
      ∧ (∀ i, IsReal (m ((c.tc : Thread nD τ).loc main_arg3) i))
      ∧ (∀ i, IsReal (m ((c.tc : Thread nD τ).loc main_arg4) i))
      ∧ (∀ i, IsReal (m ((c.tc : Thread nD τ).loc main_arg5) i))
      ∧ (∀ i, IsReal (m ((c.tc : Thread nD τ).loc main_arg6) i))
      ∧ (∀ i, IsReal (m ((c.tc : Thread nD τ).loc main_arg7) i))
      ∧ (∀ i, IsReal (m ((c.tc : Thread nD τ).loc main_arg8) i))
      ∧ (∀ i, IsReal (m ((c.tc : Thread nD τ).loc main_arg9) i))
      ∧ (∀ i, IsReal (m ((c.tc : Thread nD τ).loc main_arg10) i)) := by
  have e := congrFun (h c) ix0
  dsimp only [Cert.Pre_finite_inputs.fn, Cert.Pre_finite_inputs.fn_part1, Cert.Pre_finite_inputs.fn_part2,
    Cert.Pre_finite_inputs.fn_part3, Idealize.ShloMosaic.andi] at e
  simp only [IntOp.andi_eq_one] at e
  obtain ⟨⟨⟨⟨⟨⟨⟨⟨⟨⟨e0, e1⟩, e2⟩, e3⟩, e4⟩, e5⟩, e6⟩, e7⟩, e8⟩, e9⟩, e10⟩ := e
  exact ⟨all_real _ _ _ _ e0, all_real _ _ _ _ e1, all_real _ _ _ _ e2, all_real _ _ _ _ e3, all_real _ _ _ _ e4,
    all_real _ _ _ _ e5, all_real _ _ _ _ e6, all_real _ _ _ _ e7, all_real _ _ _ _ e8, all_real _ _ _ _ e9,
    all_real _ _ _ _ e10⟩

theorem gather_real {s si t : Shape} {w : Nat} (d : GatherDims s si t) (x : s.Idx → EReal) (idx : IVec si w)
    (hx : ∀ i, IsReal (x i)) (j : t.Idx) : IsReal (Host.gather d x idx j) := hx _

theorem scatterAdd_real {s si u : Shape} {w : Nat} (d : ScatterDims s si u) (x : FVec Ideal s .f32) (idx : IVec si w)
    (upd : FVec Ideal u .f32) (hx : ∀ i, IsReal (x i)) (hupd : ∀ j, IsReal (upd j)) (i : s.Idx) :
    IsReal (Host.scatterAdd (F := Ideal) d x idx upd i) := by
  show IsReal (x i + _)
  exact fin_real_add (hx i) (fin_real_sum _ _ fun j _ => hupd j)

theorem summedK_real (x0 : (⟨S10000x128, .f32⟩ : BufTy).Contents (Elt Ideal)) (x1 : (⟨S640000x128, .f32⟩ : BufTy).Contents (Elt Ideal))
    (x11 x12 : (⟨S640000, .i32⟩ : BufTy).Contents (Elt Ideal)) (h0 : ∀ i, IsReal (x0 i)) (h1 : ∀ i, IsReal (x1 i)) :
    ∀ i, IsReal (summedK x0 x1 x11 x12 i) := by
  intro i
  unfold summedK
  refine scatterAdd_real _ _ _ _ (fun i => ?_) (fun j => ?_) i
  · rw [bcastConst_at, Ideal.ofBits_zero_f32]; exact fin_real_zero
  · unfold msgK
    exact fin_real_add (gather_real _ _ _ h0 _) (h1 j)

theorem degK_real (x12 : (⟨S640000, .i32⟩ : BufTy).Contents (Elt Ideal)) : ∀ i, IsReal (degK x12 i) := by
  intro i
  unfold degK
  refine scatterAdd_real _ _ _ _ (fun i => ?_) (fun j => ?_) i
  · rw [bcastConst_at, Ideal.ofBits_zero_f32]; exact fin_real_zero
  · rw [bcastConst_at]; exact one_word_real

end Cert.KernelIdeal.Val

end
-- ==== Proof.Value.Pay0.lean ====
import proofs.«406289_j13400297963801_3_alg».proof.Proof.Gen.KernelIdeal.Skeleton
import proofs.«406289_j13400297963801_3_alg».proof.Proof.Value.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx
open scoped BigOperators

section Columns
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Columns

variable (v3 : Vec Ideal S1000x1 .f32) (v5 v15 : Vec Ideal S1000x128 .f32) (v11 : Vec Ideal S1x1 .f32)
  (v21 : Vec Ideal S128x256 .f32) (v24 : Vec Ideal S256 .f32) (v27 : FVec Ideal S1000x256 .f32)
  (v28 v31 v35 : Vec Ideal S1x256 .f32)

theorem pay5_at (r : Fin 1000) (k : Fin 128) :
    k0_pay5 (F := Ideal) v3 v5 v11 v15 (ix2 r k)
      = (one + v11 (ix2 0 0)) * v15 (ix2 r k) + Ideal.div (v5 (ix2 r k)) (max (v3 (ix2 r 0)) one) := by
  unfold k0_pay5
  simp only [addf_apply, mulf_apply, divf_apply, maximumf_apply, broadcast_apply, shapeCast_self,
    broadcastTo_a1_ab_apply, broadcastTo_11_ab_apply]
  rfl

theorem pay1_eq : k0_pay1 (F := Ideal) v31 = v31 := by
  unfold k0_pay1
  exact shapeCast_self _ _

theorem pay3_at (j : Fin 256) : k0_pay3 (F := Ideal) (ix2 0 j) = 0 := by
  unfold k0_pay3
  simp only [shapeCast_self, broadcast_apply]
  exact Ideal.ofBits_zero_f32

theorem pay4_at (j : Fin 256) : k0_pay4 (F := Ideal) (ix2 0 j) = 0 := by
  unfold k0_pay4
  simp only [shapeCast_self, broadcast_apply]
  exact Ideal.ofBits_zero_f32

theorem rowsSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction (F := Ideal) .add [0] ⟨1, ![b]⟩ src 0x00000000#32 h hφ hacc (ix1 j) = ∑ r : Fin a, src (ix2 r j) := by
  refine (Ideal.multiReduction_add_single src 0x00000000#32 h hφ hacc (ix1 j)).trans ?_
  refine Finset.sum_congr rfl fun r _ => ?_
  exact congrArg src (funext fun ax => Fin.ext (by match ax with | ⟨0, _⟩ => rfl | ⟨1, _⟩ => rfl))

theorem pay2_at (j : Fin 256) :
    k0_pay2 (F := Ideal) v27 v35 (ix2 0 j) = v35 (ix2 0 j) + ∑ r : Fin 1000, v27 (ix2 r j) * v27 (ix2 r j) := by
  unfold k0_pay2
  simp only [shapeCast_self, addf_apply]
  refine congrArg (v35 (ix2 0 j) + ·) ?_
  refine (shapeCast_a_1a_apply _ _ 0 j).trans ?_
  refine (rowsSum_apply _ _ _ _ j).trans ?_
  rfl

theorem pay7_at (j : Fin 256) :
    k0_pay7 (F := Ideal) v3 v5 v11 v15 v21 v24 v28 (ix2 0 j)
      = v28 (ix2 0 j) + ∑ r : Fin 1000, k0_pay6 (F := Ideal) v3 v5 v11 v15 v21 v24 (ix2 r j) := by
  unfold k0_pay7
  simp only [addf_apply]
  refine congrArg (v28 (ix2 0 j) + ·) ?_
  refine (shapeCast_a_1a_apply _ _ 0 j).trans ?_
  exact rowsSum_apply _ _ _ _ j

theorem lhs_tile_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl

theorem lhs_tile_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q

theorem rhs_tile_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q

theorem rhs_tile_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

theorem tileMatmul_at {φ₁ φ₂ : FTy} (x : FVec Ideal S1000x128 φ₁) (w : FVec Ideal S128x256 φ₂) (r : Fin 1000) (j : Fin 256) :
    matmul dot_S1000x128_S128x256_S1000x256_1_0_0_1_n_n none x w (constant (F := Ideal) S1000x256 .f32 0x00000000#32) (ix2 r j)
      = ∑ k : Fin 128, x (ix2 r k) * w (ix2 k j) := by
  simp only [matmul]
  rw [Ideal.matmul_constant_zero_apply, ← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 r j) ((contrEquiv1 dot_S1000x128_S128x256_S1000x256_1_0_0_1_n_n 128 rfl rfl).symm k) = ix2 r k := funext fun a => Fin.ext (by
    match a with
    | ⟨0, _⟩ => exact lhs_tile_0 _ _
    | ⟨1, _⟩ => exact (lhs_tile_1 _ _).trans hk)
  have er : dot_S1000x128_S128x256_S1000x256_1_0_0_1_n_n.rhsIdx (ix2 r j) ((contrEquiv1 dot_S1000x128_S128x256_S1000x256_1_0_0_1_n_n 128 rfl rfl).symm k) = ix2 k j := funext fun a => Fin.ext (by
    match a with
    | ⟨0, _⟩ => exact (rhs_tile_0 _ _).trans hk
    | ⟨1, _⟩ => exact rhs_tile_1 _ _)
  rw [el, er]

theorem pay6_at (r : Fin 1000) (j : Fin 256) :
    k0_pay6 (F := Ideal) v3 v5 v11 v15 v21 v24 (ix2 r j)
      = (∑ k : Fin 128, k0_pay5 (F := Ideal) v3 v5 v11 v15 (ix2 r k) * v21 (ix2 k j)) + v24 (ix1 j) := by
  unfold k0_pay6
  simp only [addf_apply]
  refine congrArg₂ (· + ·) ?_ ?_
  · refine (tileMatmul_at _ _ r j).trans ?_
    rfl
  · refine (broadcastTo_1b_ab_apply _ _ r j).trans ?_
    exact shapeCast_a_1a_apply _ _ 0 j

end Cert.KernelIdeal.Val

end
-- ==== Proof.Value.Tile0.lean ====
import proofs.«406289_j13400297963801_3_alg».proof.Proof.KernelIdeal.R0Runs
import proofs.«406289_j13400297963801_3_alg».proof.Proof.Value.Spec
import proofs.«406289_j13400297963801_3_alg».proof.Proof.Value.Pay0
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open scoped BigOperators

theorem tile0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

abbrev tile0 (t : Fin cfg0.N) : Fin 10 := ⟨t.val, lt_of_lt_of_eq t.isLt N_0⟩

section Blocks

variable (V : (c : Dev nD) → (b : Ref sig .tc) → Buf (Elt Ideal) ((c : Thread nD τ).loc b))

theorem iblk0_0_at (c : Dev nD) (t : Fin cfg0.N) (y : Fin 1000) (k : Fin 128) :
    (iblk0 V c 0 t : Vec Ideal S1000x128 .f32) (ix2 y k) = at2 (V c main_arg0) (tileRow (tile0 t) y) k := by
  obtain ⟨e0, e1, -⟩ := tile0_index t
  show V c main_arg0 (((cfg0.win 0).blk t).view.emb (ix2 y k)) = V c main_arg0 (ix2 (tileRow (tile0 t) y) k)
  refine congrArg (V c main_arg0) (funext fun a => Fin.ext ?_)
  match a with
  | ⟨0, _⟩ => show win0_0.index t (0 : Fin 2) * 1000 + 1 * y.val = 1000 * t.val + y.val; omega
  | ⟨1, _⟩ => show win0_0.index t (1 : Fin 2) * 128 + 1 * k.val = k.val; omega

theorem iblk0_1_at (c : Dev nD) (t : Fin cfg0.N) (y : Fin 1000) (k : Fin 128) :
    (iblk0 V c 1 t : Vec Ideal S1000x128 .f32) (ix2 y k) = at2 (V c main_v10) (tileRow (tile0 t) y) k := by
  obtain ⟨-, -, e0, e1, -⟩ := tile0_index t
  show V c main_v10 (((cfg0.win 1).blk t).view.emb (ix2 y k)) = V c main_v10 (ix2 (tileRow (tile0 t) y) k)
  refine congrArg (V c main_v10) (funext fun a => Fin.ext ?_)
  match a with
  | ⟨0, _⟩ => show win0_1.index t (0 : Fin 2) * 1000 + 1 * y.val = 1000 * t.val + y.val; omega
  | ⟨1, _⟩ => show win0_1.index t (1 : Fin 2) * 128 + 1 * k.val = k.val; omega

theorem iblk0_2_at (c : Dev nD) (t : Fin cfg0.N) (y : Fin 1000) :
    (iblk0 V c 2 t : Vec Ideal S1000x1 .f32) (ix2 y 0) = at2 (V c main_v15) (tileRow (tile0 t) y) 0 := by
  obtain ⟨-, -, -, -, e0, e1, -⟩ := tile0_index t
  show V c main_v15 (((cfg0.win 2).blk t).view.emb (ix2 y 0)) = V c main_v15 (ix2 (tileRow (tile0 t) y) 0)
  refine congrArg (V c main_v15) (funext fun a => Fin.ext ?_)
  match a with
  | ⟨0, _⟩ => show win0_2.index t (0 : Fin 2) * 1000 + 1 * y.val = 1000 * t.val + y.val; omega
  | ⟨1, _⟩ => show win0_2.index t (1 : Fin 2) * 1 + 1 * 0 = 0; omega

theorem iblk0_3_at (c : Dev nD) (t : Fin cfg0.N) :
    (iblk0 V c 3 t : Vec Ideal S1x1 .f32) (ix2 0 0) = at2 (V c main_v16) 0 0 := by
  obtain ⟨-, -, -, -, -, -, e0, e1, -⟩ := tile0_index t
  show V c main_v16 (((cfg0.win 3).blk t).view.emb (ix2 0 0)) = V c main_v16 (ix2 0 0)
  refine congrArg (V c main_v16) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

theorem iblk0_4_at (c : Dev nD) (t : Fin cfg0.N) (k : Fin 128) (j : Fin 256) :
    (iblk0 V c 4 t : Vec Ideal S128x256 .f32) (ix2 k j) = at2 (V c main_arg3) k j := by
  obtain ⟨-, -, -, -, -, -, -, -, e0, e1, -⟩ := tile0_index t
  show V c main_arg3 (((cfg0.win 4).blk t).view.emb (ix2 k j)) = V c main_arg3 (ix2 k j)
  refine congrArg (V c main_arg3) (funext fun a => Fin.ext ?_)
  match a with
  | ⟨0, _⟩ => show win0_4.index t (0 : Fin 2) * 128 + 1 * k.val = k.val; omega
  | ⟨1, _⟩ => show win0_4.index t (1 : Fin 2) * 256 + 1 * j.val = j.val; omega

theorem iblk0_5_at (c : Dev nD) (t : Fin cfg0.N) (j : Fin 256) :
    (iblk0 V c 5 t : Vec Ideal S256 .f32) (ix1 j) = at1 (V c main_arg4) j := by
  obtain ⟨-, -, -, -, -, -, -, -, -, -, e0⟩ := tile0_index t
  show V c main_arg4 (((cfg0.win 5).blk t).view.emb (ix1 j)) = V c main_arg4 (ix1 j)
  refine congrArg (V c main_arg4) (funext fun a => Fin.ext ?_)
  match a with
  | ⟨0, _⟩ => show win0_5.index t (0 : Fin 1) * 256 + 1 * j.val = j.val; omega

abbrev X0 (c : Dev nD) : Fin 10000 → Fin 128 → EReal :=
  hin (at2 (V c main_arg0)) (at2 (V c main_v10)) (fun r => at2 (V c main_v15) r 0) (at2 (V c main_v16) 0 0)

abbrev H1 (c : Dev nD) : Fin 10000 → Fin 256 → EReal := lin (X0 V c) (at2 (V c main_arg3)) (at1 (V c main_arg4))

theorem tile0_hin (c : Dev nD) (t : Fin cfg0.N) (y : Fin 1000) (k : Fin 128) :
    k0_pay5 (F := Ideal) (iblk0 V c 2 t) (iblk0 V c 1 t) (iblk0 V c 3 t) (iblk0 V c 0 t) (ix2 y k)
      = X0 V c (tileRow (tile0 t) y) k := by
  refine (pay5_at (v3 := iblk0 V c 2 t) (v5 := iblk0 V c 1 t) (v11 := iblk0 V c 3 t) (v15 := iblk0 V c 0 t) y k).trans ?_
  exact congrArg₂ (· + ·)
    (congrArg₂ (· * ·) (congrArg (one + ·) (iblk0_3_at V c t)) (iblk0_0_at V c t y k))
    (congrArg₂ Ideal.div (iblk0_1_at V c t y k) (congrArg (max · one) (iblk0_2_at V c t y)))

theorem tile0_h1 (c : Dev nD) (t : Fin cfg0.N) (y : Fin 1000) (j : Fin 256) :
    k0_pay6 (F := Ideal) (iblk0 V c 2 t) (iblk0 V c 1 t) (iblk0 V c 3 t) (iblk0 V c 0 t) (iblk0 V c 4 t) (iblk0 V c 5 t) (ix2 y j)
      = H1 V c (tileRow (tile0 t) y) j := by
  refine (pay6_at (v3 := iblk0 V c 2 t) (v5 := iblk0 V c 1 t) (v11 := iblk0 V c 3 t) (v15 := iblk0 V c 0 t) (v21 := iblk0 V c 4 t) (v24 := iblk0 V c 5 t) y j).trans ?_
  exact congrArg₂ (· + ·)
    (Finset.sum_congr rfl fun k _ => congrArg₂ (· * ·) (tile0_hin V c t y k) (iblk0_4_at V c t k j))
    (iblk0_5_at V c t j)

theorem tile0_sum (c : Dev nD) (t : Fin cfg0.N) (acc : Vec Ideal S1x256 .f32) (j : Fin 256) :
    k0_pay7 (F := Ideal) (iblk0 V c 2 t) (iblk0 V c 1 t) (iblk0 V c 3 t) (iblk0 V c 0 t) (iblk0 V c 4 t) (iblk0 V c 5 t) acc (ix2 0 j)
      = acc (ix2 0 j) + tileSum (H1 V c) (tile0 t) j := by
  refine (pay7_at (v3 := iblk0 V c 2 t) (v5 := iblk0 V c 1 t) (v11 := iblk0 V c 3 t) (v15 := iblk0 V c 0 t) (v21 := iblk0 V c 4 t) (v24 := iblk0 V c 5 t) (v28 := acc) j).trans ?_
  exact congrArg (acc (ix2 0 j) + ·) (Finset.sum_congr rfl fun r _ => tile0_h1 V c t r j)

theorem tile0_sumsq (c : Dev nD) (t : Fin cfg0.N) (acc : Vec Ideal S1x256 .f32) (j : Fin 256) :
    k0_pay2 (F := Ideal) (k0_pay6 (F := Ideal) (iblk0 V c 2 t) (iblk0 V c 1 t) (iblk0 V c 3 t) (iblk0 V c 0 t) (iblk0 V c 4 t) (iblk0 V c 5 t)) acc (ix2 0 j)
      = acc (ix2 0 j) + tileSumSq (H1 V c) (tile0 t) j := by
  refine (pay2_at (v27 := k0_pay6 (F := Ideal) (iblk0 V c 2 t) (iblk0 V c 1 t) (iblk0 V c 3 t) (iblk0 V c 0 t) (iblk0 V c 4 t) (iblk0 V c 5 t)) (v35 := acc) j).trans ?_
  exact congrArg (acc (ix2 0 j) + ·)
    (Finset.sum_congr rfl fun r _ => congrArg₂ (· * ·) (tile0_h1 V c t r j) (tile0_h1 V c t r j))

end Blocks

end Cert.KernelIdeal.Val

end
-- ==== Proof.Value.Reg0.lean ====
import proofs.«406289_j13400297963801_3_alg».proof.Proof.KernelIdeal.R0
import proofs.«406289_j13400297963801_3_alg».proof.Proof.Value.Spec
import proofs.«406289_j13400297963801_3_alg».proof.Proof.Value.Pay0
import proofs.«406289_j13400297963801_3_alg».proof.Proof.Value.Tile0
import proofs.«406289_j13400297963801_3_alg».proof.Proof.Value.Math
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.ShloMosaic.Tactic Idealize.SL.Sem
open Idealize.ShloMosaic.Pipeline (Dat)

namespace Reg0

theorem zeros2 : (![0, 0] : Fin 2 → Nat) = fun _ => 0 := funext fun a => by fin_cases a <;> rfl
theorem zeros1 : (![0] : Fin 1 → Nat) = fun _ => 0 := funext fun a => by fin_cases a <;> rfl

section Pieces
variable {F : FTy → Type} [FloatOps F]

section
variable (c : Dev nD) (i : grid0.Coords) (arg1 : Memref sig .tc .vmem S1000x128 .f32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S1x1 .f32) (harg4 : arg4.IsWhole) (arg5 : Memref sig .tc .vmem S128x256 .f32) (harg5 : arg5.IsWhole) (arg6 : Memref sig .tc .vmem S256 .f32) (harg6 : arg6.IsWhole) (arg7 : Memref sig .tc .vmem S1000x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)

section
variable (hc0 : cond0_0 i) (hc1 : ¬cond0_1 i) (x0 : Vec F S1000x128 .f32) (x1 : Vec F S1000x128 .f32) (x2 : Vec F S1000x1 .f32) (x3 : Vec F S1x1 .f32) (x4 : Vec F S128x256 .f32) (x5 : Vec F S256 .f32)

theorem out0_A_6_eq :
    (outs0_A c i arg1 harg1 arg2 harg2 arg3 harg3 arg4 harg4 arg5 harg5 arg6 harg6 arg7 harg7 arg8 harg8 arg9 harg9 arg10 harg10 arg11 harg11 hc0 hc1 x0 x1 x2 x3 x4 x5).tile = k0_pay5 x2 x1 x3 x0 := by
  unfold outs0_A; dsimp only
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  rw [View.canon_unit_zero (S := S1000x128) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem sout0_A_0_eq :
    (outs0_A c i arg1 harg1 arg2 harg2 arg3 harg3 arg4 harg4 arg5 harg5 arg6 harg6 arg7 harg7 arg8 harg8 arg9 harg9 arg10 harg10 arg11 harg11 hc0 hc1 x0 x1 x2 x3 x4 x5).sum = k0_pay1 (k0_pay7 x2 x1 x3 x0 x4 x5 (k0_pay3 (F := F))) := by
  unfold outs0_A; dsimp only
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  rw [View.canon_cons_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem sout0_A_1_eq :
    (outs0_A c i arg1 harg1 arg2 harg2 arg3 harg3 arg4 harg4 arg5 harg5 arg6 harg6 arg7 harg7 arg8 harg8 arg9 harg9 arg10 harg10 arg11 harg11 hc0 hc1 x0 x1 x2 x3 x4 x5).sq = k0_pay2 (k0_pay6 x2 x1 x3 x0 x4 x5) (k0_pay4 (F := F)) := by
  unfold outs0_A; dsimp only
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  rw [View.canon_cons_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

end

section
variable (hc0 : ¬cond0_0 i) (hc1 : ¬cond0_1 i) (x0 : Vec F S1000x128 .f32) (x1 : Vec F S1000x128 .f32) (x2 : Vec F S1000x1 .f32) (x3 : Vec F S1x1 .f32) (x4 : Vec F S128x256 .f32) (x5 : Vec F S256 .f32) (xs0 xs1 : Vec F S1x256 .f32)

theorem out0_B_6_eq :
    (outs0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).tile = k0_pay5 x2 x1 x3 x0 := by
  unfold outs0_B; dsimp only
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  rw [View.canon_unit_zero (S := S1000x128) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem sout0_B_0_eq :
    (outs0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sum = k0_pay1 (k0_pay7 x2 x1 x3 x0 x4 x5 xs0) := by
  unfold outs0_B; dsimp only
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  rw [View.canon_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem sout0_B_1_eq :
    (outs0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sq = k0_pay2 (k0_pay6 x2 x1 x3 x0 x4 x5) xs1 := by
  unfold outs0_B; dsimp only
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  rw [View.canon_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

end

section
variable (hc0 : ¬cond0_0 i) (hc1 : cond0_1 i) (x0 : Vec F S1000x128 .f32) (x1 : Vec F S1000x128 .f32) (x2 : Vec F S1000x1 .f32) (x3 : Vec F S1x1 .f32) (x4 : Vec F S128x256 .f32) (x5 : Vec F S256 .f32) (xs0 xs1 : Vec F S1x256 .f32)

theorem out0_C_6_eq :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).tile = k0_pay5 x2 x1 x3 x0 := by
  unfold outs0_C; dsimp only
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  rw [View.canon_unit_zero (S := S1000x128) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem sout0_C_0_eq :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sum = k0_pay1 (k0_pay7 x2 x1 x3 x0 x4 x5 xs0) := by
  unfold outs0_C; dsimp only
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  rw [View.canon_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem sout0_C_1_eq :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sq = k0_pay2 (k0_pay6 x2 x1 x3 x0 x4 x5) xs1 := by
  unfold outs0_C; dsimp only
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  rw [View.canon_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem out0_C_7_eq :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sumOut = k0_pay1 (k0_pay7 x2 x1 x3 x0 x4 x5 xs0) := by
  unfold outs0_C; dsimp only
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  rw [View.canon_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

theorem out0_C_8_eq :
    (outs0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sqOut = k0_pay2 (k0_pay6 x2 x1 x3 x0 x4 x5) xs1 := by
  unfold outs0_C; dsimp only
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  rw [View.canon_unit_zero (S := S1x256) zeros2]
  simp only [View.readAt_eq_ld, harg1.read_unread, harg2.read_unread, harg3.read_unread, harg4.read_unread, harg5.read_unread, harg6.read_unread, harg10.read_unread, harg11.read_unread,
    View.ld_unit_zero (S := S1000x128) zeros2, View.ld_unit_zero (S := S1000x1) zeros2, View.ld_unit_zero (S := S1x1) zeros2, View.ld_unit_zero (S := S128x256) zeros2, View.ld_unit_zero (S := S256) zeros1, View.ld_unit_zero (S := S1x256) zeros2,
    View.readCov_unit_zero (S := S1x256) _ zeros2]

end

end

end Pieces

theorem tile_index : ∀ t : Fin cfg0.N,
    win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem tile_onto : ∀ q : Fin 10, ∃ t : Fin cfg0.N, win0_6.index t (0 : Fin 2) = q.val ∧ win0_6.index t (1 : Fin 2) = 0 :=
  (by decide +kernel : ∀ q : Fin 10, ∃ t : Fin grid0.N, win0_6.index t (0 : Fin 2) = q.val ∧ win0_6.index t (1 : Fin 2) = 0)

theorem mem_tile6 (t : Fin cfg0.N) (i : S10000x128.Idx) :
    i ∈ ((cfg0.win 6).blk t).view.set ↔ ∀ a : Fin 2, win0_6.index t a * S1000x128.size a ≤ (i a).val ∧ (i a).val < win0_6.index t a * S1000x128.size a + S1000x128.size a := by
  show i ∈ ((View.whole main_v17_0).slice (win0_6.rect t)).set ↔ _
  rw [View.set_slice_whole, Rect.mem_set_unit]
  exact Iff.rfl

theorem mem_tile7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v17_1).slice (win0_7.rect t)).set ↔ _
  rw [View.set_slice_whole, Rect.mem_set_unit]
  exact Iff.rfl

theorem mem_tile8 (t : Fin cfg0.N) (i : S1x256.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v17_2).slice (win0_8.rect t)).set ↔ _
  rw [View.set_slice_whole, Rect.mem_set_unit]
  exact Iff.rfl

theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  obtain ⟨t, ht0, ht1⟩ := tile_onto ⟨(i 0).val / 1000, by omega⟩
  have q0 : win0_6.index t (0 : Fin 2) = (i 0).val / 1000 := ht0
  refine ⟨t, flush0_6 t, ?_⟩
  rw [mem_tile6]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 128 ≤ (i 1).val ∧ (i 1).val < win0_6.index t (1 : Fin 2) * 128 + 128; omega

section
variable (V : (c : Dev nD) → (b : Ref sig .tc) → Buf (Elt Ideal) ((c : Thread nD τ).loc b))

def rows6 (c : Dev nD) : S10000x128.Idx → EReal := fun i => X0 V c (i 0) (i 1)

def cols7 (c : Dev nD) : S1x256.Idx → EReal := fun i => colSum (H1 V c) (i 1)

def cols8 (c : Dev nD) : S1x256.Idx → EReal := fun i => colSumSq (H1 V c) (i 1)

theorem rows6_of_read (c : Dev nD) (e : S10000x128.Idx) (r : Fin 10000) (k : Fin 128) (h : e = ix2 r k) :
    X0 V c r k = rows6 V c e := by subst h; rfl
theorem cols7_of_read (c : Dev nD) (e : S1x256.Idx) (q : Fin 256) (h : e = ix2 (0 : Fin 1) q) :
    colSum (H1 V c) q = cols7 V c e := by subst h; rfl
theorem cols8_of_read (c : Dev nD) (e : S1x256.Idx) (q : Fin 256) (h : e = ix2 (0 : Fin 1) q) :
    colSumSq (H1 V c) q = cols8 V c e := by subst h; rfl

theorem out6_eq (c : Dev nD) (t : Fin cfg0.N) :
    (outsAt0 V c t.val t.isLt).tile = k0_pay5 (F := Ideal) (iblk0 V c 2 t) (iblk0 V c 1 t) (iblk0 V c 3 t) (iblk0 V c 0 t) := by
  by_cases h0 : t.val = 0
  · have h1 : ¬t.val = 9 := by omega
    rw [outsAt0_A V c t h0 h1]
    exact out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hq => h1 ((hcond0_1 t).mp hq)) (iblk0 V c 0 t) (iblk0 V c 1 t) (iblk0 V c 2 t) (iblk0 V c 3 t) (iblk0 V c 4 t) (iblk0 V c 5 t)
  · by_cases h1 : t.val = 9
    · rw [outsAt0_C V c t h0 h1]
      exact out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq
    · rw [outsAt0_B V c t h0 h1]
      exact out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) (fun hq => h1 ((hcond0_1 t).mp hq)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq

theorem sum_first (c : Dev nD) (t : Fin cfg0.N) (h0 : t.val = 0) (j : Fin 256) :
    (outsAt0 V c t.val t.isLt).sum (ix2 0 j) = 0 + tileSum (H1 V c) (tile0 t) j := by
  have h1 : ¬t.val = 9 := by omega
  rw [outsAt0_A V c t h0 h1]
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hq => h1 ((hcond0_1 t).mp hq)) (iblk0 V c 0 t) (iblk0 V c 1 t) (iblk0 V c 2 t) (iblk0 V c 3 t) (iblk0 V c 4 t) (iblk0 V c 5 t)) (ix2 0 j)).trans ?_
  refine (congrFun (pay1_eq (k0_pay7 (F := Ideal) (iblk0 V c 2 t) (iblk0 V c 1 t) (iblk0 V c 3 t) (iblk0 V c 0 t) (iblk0 V c 4 t) (iblk0 V c 5 t) (k0_pay3 (F := Ideal)))) (ix2 0 j)).trans ?_
  refine (tile0_sum V c t (k0_pay3 (F := Ideal)) j).trans ?_
  exact congrArg (· + tileSum (H1 V c) (tile0 t) j) (pay3_at j)

theorem sum_later (c : Dev nD) (t : Fin cfg0.N) (h0 : t.val ≠ 0) (j : Fin 256) :
    (outsAt0 V c t.val t.isLt).sum (ix2 0 j) = (outsAt0 V c (t.val - 1) (Nat.lt_of_le_of_lt (Nat.sub_le _ _) t.isLt)).sum (ix2 0 j) + tileSum (H1 V c) (tile0 t) j := by
  by_cases h1 : t.val = 9
  · rw [outsAt0_C V c t h0 h1]
    refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq) (ix2 0 j)).trans ?_
    refine (congrFun (pay1_eq (k0_pay7 (F := Ideal) (iblk0 V c 2 t) (iblk0 V c 1 t) (iblk0 V c 3 t) (iblk0 V c 0 t) (iblk0 V c 4 t) (iblk0 V c 5 t) (outsAt0 V c (t.val - 1) (Nat.lt_of_le_of_lt (Nat.sub_le _ _) t.isLt)).sum)) (ix2 0 j)).trans ?_
    exact tile0_sum V c t (outsAt0 V c (t.val - 1) (Nat.lt_of_le_of_lt (Nat.sub_le _ _) t.isLt)).sum j
  · rw [outsAt0_B V c t h0 h1]
    refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) (fun hq => h1 ((hcond0_1 t).mp hq)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq) (ix2 0 j)).trans ?_
    refine (congrFun (pay1_eq (k0_pay7 (F := Ideal) (iblk0 V c 2 t) (iblk0 V c 1 t) (iblk0 V c 3 t) (iblk0 V c 0 t) (iblk0 V c 4 t) (iblk0 V c 5 t) (outsAt0 V c (t.val - 1) (Nat.lt_of_le_of_lt (Nat.sub_le _ _) t.isLt)).sum)) (ix2 0 j)).trans ?_
    exact tile0_sum V c t (outsAt0 V c (t.val - 1) (Nat.lt_of_le_of_lt (Nat.sub_le _ _) t.isLt)).sum j

theorem acc0_eq (c : Dev nD) (n : ℕ) (h : n < cfg0.N) (j : Fin 256) :
    (outsAt0 V c n h).sum (ix2 0 j) = runTotal (tileSum (H1 V c)) (n + 1) (Nat.succ_le_of_lt (lt_of_lt_of_eq h N_0)) j :=
  runTotal_of_steps (tileSum (H1 V c)) (fun n h j => (outsAt0 V c n (lt_of_lt_of_eq h (N_0.symm : 10 = cfg0.N))).sum (ix2 0 j))
    (fun h j => sum_first V c ⟨0, lt_of_lt_of_eq h (N_0.symm : 10 = cfg0.N)⟩ rfl j)
    (fun n h j => sum_later V c ⟨n + 1, lt_of_lt_of_eq h (N_0.symm : 10 = cfg0.N)⟩ (Nat.succ_ne_zero n) j) n (lt_of_lt_of_eq h N_0) j

theorem sq_first (c : Dev nD) (t : Fin cfg0.N) (h0 : t.val = 0) (j : Fin 256) :
    (outsAt0 V c t.val t.isLt).sq (ix2 0 j) = 0 + tileSumSq (H1 V c) (tile0 t) j := by
  have h1 : ¬t.val = 9 := by omega
  rw [outsAt0_A V c t h0 h1]
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hq => h1 ((hcond0_1 t).mp hq)) (iblk0 V c 0 t) (iblk0 V c 1 t) (iblk0 V c 2 t) (iblk0 V c 3 t) (iblk0 V c 4 t) (iblk0 V c 5 t)) (ix2 0 j)).trans ?_
  refine (tile0_sumsq V c t (k0_pay4 (F := Ideal)) j).trans ?_
  exact congrArg (· + tileSumSq (H1 V c) (tile0 t) j) (pay4_at j)

theorem sq_later (c : Dev nD) (t : Fin cfg0.N) (h0 : t.val ≠ 0) (j : Fin 256) :
    (outsAt0 V c t.val t.isLt).sq (ix2 0 j) = (outsAt0 V c (t.val - 1) (Nat.lt_of_le_of_lt (Nat.sub_le _ _) t.isLt)).sq (ix2 0 j) + tileSumSq (H1 V c) (tile0 t) j := by
  by_cases h1 : t.val = 9
  · rw [outsAt0_C V c t h0 h1]
    refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq) (ix2 0 j)).trans ?_
    exact tile0_sumsq V c t (outsAt0 V c (t.val - 1) (Nat.lt_of_le_of_lt (Nat.sub_le _ _) t.isLt)).sq j
  · rw [outsAt0_B V c t h0 h1]
    refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) (fun hq => h1 ((hcond0_1 t).mp hq)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq) (ix2 0 j)).trans ?_
    exact tile0_sumsq V c t (outsAt0 V c (t.val - 1) (Nat.lt_of_le_of_lt (Nat.sub_le _ _) t.isLt)).sq j

theorem acc1_eq (c : Dev nD) (n : ℕ) (h : n < cfg0.N) (j : Fin 256) :
    (outsAt0 V c n h).sq (ix2 0 j) = runTotal (tileSumSq (H1 V c)) (n + 1) (Nat.succ_le_of_lt (lt_of_lt_of_eq h N_0)) j :=
  runTotal_of_steps (tileSumSq (H1 V c)) (fun n h j => (outsAt0 V c n (lt_of_lt_of_eq h (N_0.symm : 10 = cfg0.N))).sq (ix2 0 j))
    (fun h j => sq_first V c ⟨0, lt_of_lt_of_eq h (N_0.symm : 10 = cfg0.N)⟩ rfl j)
    (fun n h j => sq_later V c ⟨n + 1, lt_of_lt_of_eq h (N_0.symm : 10 = cfg0.N)⟩ (Nat.succ_ne_zero n) j) n (lt_of_lt_of_eq h N_0) j

theorem out7_last (c : Dev nD) (t : Fin cfg0.N) (h9 : t.val = 9) (j : Fin 256) :
    (outsAt0 V c t.val t.isLt).sumOut (ix2 0 j) = colSum (H1 V c) j := by
  have hN : cfg0.N = 10 := N_0
  have h0 : ¬t.val = 0 := by omega
  have h1 : t.val = 9 := h9
  rw [outsAt0_C V c t h0 h1]
  refine (congrFun (out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq) (ix2 0 j)).trans ?_
  refine (congrFun (pay1_eq (k0_pay7 (F := Ideal) (iblk0 V c 2 t) (iblk0 V c 1 t) (iblk0 V c 3 t) (iblk0 V c 0 t) (iblk0 V c 4 t) (iblk0 V c 5 t) (outsAt0 V c (t.val - 1) (Nat.lt_of_le_of_lt (Nat.sub_le _ _) t.isLt)).sum)) (ix2 0 j)).trans ?_
  refine (tile0_sum V c t (outsAt0 V c (t.val - 1) (Nat.lt_of_le_of_lt (Nat.sub_le _ _) t.isLt)).sum j).trans ?_
  rw [acc0_eq V c (t.val - 1) (Nat.lt_of_le_of_lt (Nat.sub_le _ _) t.isLt) j]
  refine Eq.trans ?_ (runTotal_tileSum (H1 V c) j)
  obtain ⟨n, hn⟩ := t
  obtain rfl : n = 9 := h9
  rfl

theorem out8_last (c : Dev nD) (t : Fin cfg0.N) (h9 : t.val = 9) (j : Fin 256) :
    (outsAt0 V c t.val t.isLt).sqOut (ix2 0 j) = colSumSq (H1 V c) j := by
  have hN : cfg0.N = 10 := N_0
  have h0 : ¬t.val = 0 := by omega
  have h1 : t.val = 9 := h9
  rw [outsAt0_C V c t h0 h1]
  refine (congrFun (out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).sum (outsAt0 V c (t.val - 1) (Nat.lt_of_le_of_lt (Nat.sub_le _ _) t.isLt)).sq) (ix2 0 j)).trans ?_
  refine (tile0_sumsq V c t (outsAt0 V c (t.val - 1) (Nat.lt_of_le_of_lt (Nat.sub_le _ _) t.isLt)).sq j).trans ?_
  rw [acc1_eq V c (t.val - 1) (Nat.lt_of_le_of_lt (Nat.sub_le _ _) t.isLt) j]
  refine Eq.trans ?_ (runTotal_tileSumSq (H1 V c) j)
  obtain ⟨n, hn⟩ := t
  obtain rfl : n = 9 := h9
  rfl

theorem flushed6_eq (c : Dev nD) (t : Fin cfg0.N) :
    (dat0 (F := Ideal) V c).flushed 6 t = ((cfg0.win 6).blk t).view.read (Elt Ideal) (rows6 V c) := by
  show (cfg0.win 6).cut (grid0.coords t) ((dat0 V c).after 6 t) = _
  rw [after0_6, out6_eq V c t]
  funext y
  obtain ⟨p, q, rfl⟩ : ∃ (p : Fin 1000) (q : Fin 128), y = ix2 p q := ⟨y 0, y 1, eq_ix2 y⟩
  refine (tile0_hin V c t p q).trans ?_
  obtain ⟨e60, e61, e70, e71, e80, e81⟩ := tile_index t
  have hN : t.val < 10 := lt_of_lt_of_eq t.isLt N_0
  have he : ((cfg0.win 6).blk t).view.emb (ix2 p q) = ix2 (tileRow (tile0 t) p) q := by
    funext a; apply Fin.ext
    match a with
    | ⟨0, _⟩ => show win0_6.index t (0 : Fin 2) * 1000 + 1 * p.val = 1000 * t.val + p.val; omega
    | ⟨1, _⟩ => show win0_6.index t (1 : Fin 2) * 128 + 1 * q.val = q.val; omega
  exact rows6_of_read V c _ _ q he

theorem flushed7_eq (c : Dev nD) (t : Fin cfg0.N) (hf : (cfg0.win 7).flush t = true) :
    (dat0 (F := Ideal) V c).flushed 7 t = ((cfg0.win 7).blk t).view.read (Elt Ideal) (cols7 V c) := by
  have hN : cfg0.N = 10 := N_0
  have h9 : t.val = 9 := by have := (flush0_7 t).mp hf; have := t.isLt; omega
  show (cfg0.win 7).cut (grid0.coords t) ((dat0 V c).after 7 t) = _
  rw [after0_7]
  funext y
  obtain ⟨p, q, rfl⟩ : ∃ (p : Fin 1) (q : Fin 256), y = ix2 p q := ⟨y 0, y 1, eq_ix2 y⟩
  obtain rfl : p = 0 := Subsingleton.elim _ _
  refine (out7_last V c t h9 q).trans ?_
  obtain ⟨e60, e61, e70, e71, e80, e81⟩ := tile_index t
  have hq : ((cfg0.win 7).blk t).view.emb (ix2 (0 : Fin 1) q) = ix2 (0 : Fin 1) q := by
    funext a; apply Fin.ext
    match a with
    | ⟨0, _⟩ => show win0_7.index t (0 : Fin 2) * 1 + 1 * (0 : Fin 1).val = (0 : Fin 1).val; rw [e70]; rfl
    | ⟨1, _⟩ => show win0_7.index t (1 : Fin 2) * 256 + 1 * q.val = q.val; omega
  exact cols7_of_read V c _ q hq

theorem cover7 (i : S1x256.Idx) :
    ∃ t : Fin cfg0.N, (cfg0.win 7).flush t = true ∧ i ∈ ((cfg0.win 7).blk t).view.set := by
  have hi0 : (i 0).val < 1 := (i 0).isLt
  have hi1 : (i 1).val < 256 := (i 1).isLt
  obtain ⟨e60, e61, e70, e71, e80, e81⟩ := tile_index t0_9
  refine ⟨t0_9, (flush0_7 t0_9).mpr rfl, ?_⟩
  rw [mem_tile7]
  intro a
  match a with
  | ⟨0, _⟩ => show win0_7.index t0_9 (0 : Fin 2) * 1 ≤ (i 0).val ∧ (i 0).val < win0_7.index t0_9 (0 : Fin 2) * 1 + 1; omega
  | ⟨1, _⟩ => show win0_7.index t0_9 (1 : Fin 2) * 256 ≤ (i 1).val ∧ (i 1).val < win0_7.index t0_9 (1 : Fin 2) * 256 + 256; omega

theorem flushed8_eq (c : Dev nD) (t : Fin cfg0.N) (hf : (cfg0.win 8).flush t = true) :
    (dat0 (F := Ideal) V c).flushed 8 t = ((cfg0.win 8).blk t).view.read (Elt Ideal) (cols8 V c) := by
  have hN : cfg0.N = 10 := N_0
  have h9 : t.val = 9 := by have := (flush0_8 t).mp hf; have := t.isLt; omega
  show (cfg0.win 8).cut (grid0.coords t) ((dat0 V c).after 8 t) = _
  rw [after0_8]
  funext y
  obtain ⟨p, q, rfl⟩ : ∃ (p : Fin 1) (q : Fin 256), y = ix2 p q := ⟨y 0, y 1, eq_ix2 y⟩
  obtain rfl : p = 0 := Subsingleton.elim _ _
  refine (out8_last V c t h9 q).trans ?_
  obtain ⟨e60, e61, e70, e71, e80, e81⟩ := tile_index t
  have hq : ((cfg0.win 8).blk t).view.emb (ix2 (0 : Fin 1) q) = ix2 (0 : Fin 1) q := by
    funext a; apply Fin.ext
    match a with
    | ⟨0, _⟩ => show win0_8.index t (0 : Fin 2) * 1 + 1 * (0 : Fin 1).val = (0 : Fin 1).val; rw [e80]; rfl
    | ⟨1, _⟩ => show win0_8.index t (1 : Fin 2) * 256 + 1 * q.val = q.val; omega
  exact cols8_of_read V c _ q hq

theorem cover8 (i : S1x256.Idx) :
    ∃ t : Fin cfg0.N, (cfg0.win 8).flush t = true ∧ i ∈ ((cfg0.win 8).blk t).view.set := by
  have hi0 : (i 0).val < 1 := (i 0).isLt
  have hi1 : (i 1).val < 256 := (i 1).isLt
  obtain ⟨e60, e61, e70, e71, e80, e81⟩ := tile_index t0_9
  refine ⟨t0_9, (flush0_8 t0_9).mpr rfl, ?_⟩
  rw [mem_tile8]
  intro a
  match a with
  | ⟨0, _⟩ => show win0_8.index t0_9 (0 : Fin 2) * 1 ≤ (i 0).val ∧ (i 0).val < win0_8.index t0_9 (0 : Fin 2) * 1 + 1; omega
  | ⟨1, _⟩ => show win0_8.index t0_9 (1 : Fin 2) * 256 ≤ (i 1).val ∧ (i 1).val < win0_8.index t0_9 (1 : Fin 2) * 256 + 256; omega

end

end Reg0

section
variable (V : (c : Dev nD) → (b : Ref sig .tc) → Buf (Elt Ideal) ((c : Thread nD τ).loc b))

theorem arrAt0_6 (c : Dev nD) (r : Fin 10000) (k : Fin 128) :
    (dat0 (F := Ideal) V c).arrAt 6 cfg0.N (ix2 r k) = X0 V c r k :=
  congrFun ((dat0 (F := Ideal) V c).arrAt_eq_of_cover 6 (Reg0.rows6 V c) (fun t _ => Reg0.flushed6_eq V c t) Reg0.cover6) (ix2 r k)

theorem arrAt0_7 (c : Dev nD) (j : Fin 256) :
    (dat0 (F := Ideal) V c).arrAt 7 cfg0.N (ix2 0 j) = colSum (H1 V c) j :=
  congrFun ((dat0 (F := Ideal) V c).arrAt_eq_of_cover 7 (Reg0.cols7 V c) (Reg0.flushed7_eq V c) Reg0.cover7) (ix2 0 j)

theorem arrAt0_8 (c : Dev nD) (j : Fin 256) :
    (dat0 (F := Ideal) V c).arrAt 8 cfg0.N (ix2 0 j) = colSumSq (H1 V c) j :=
  congrFun ((dat0 (F := Ideal) V c).arrAt_eq_of_cover 8 (Reg0.cols8 V c) (Reg0.flushed8_eq V c) Reg0.cover8) (ix2 0 j)

end

end Cert.KernelIdeal.Val

end
-- ==== Proof.Value.R1Pieces.lean ====
import proofs.«406289_j13400297963801_3_alg».proof.Proof.KernelIdeal.R1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem r1zeros2 : (![0, 0] : Fin 2 → Nat) = fun _ => 0 := funext fun a => by fin_cases a <;> rfl
theorem r1zeros1 : (![0] : Fin 1 → Nat) = fun _ => 0 := funext fun a => by fin_cases a <;> rfl

section
variable (c : Dev nD) (i : grid1.Coords) (arg1 : Memref sig .tc .vmem S1000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole)

section
variable (hc0 : cond1_0 i) (hc1 : ¬cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32)

theorem out1_A_9_eq :
    (outs1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).tile = k1_pay1 (k1_pay6 x0 x1 x2 x4 x3 x5 x6 x7) x8 := by
  unfold outs1_A; dsimp only
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem sout1_A_0_eq :
    (outs1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).sum = k1_pay2 (k1_pay6 x0 x1 x2 x4 x3 x5 x6 x7) x8 (k1_pay4 (F := F)) := by
  unfold outs1_A; dsimp only
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  sl_unfold_words
  rw [View.canon_cons_unit_zero (S := S1x128) r1zeros2, View.readCov_unit_zero (S := S1x128) _ r1zeros2]
  simp only [View.readAt_eq_ld, harg1.read_unread, harg2.read_unread, harg3.read_unread, harg4.read_unread, harg5.read_unread, harg6.read_unread, harg7.read_unread, harg8.read_unread, harg9.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem sout1_A_1_eq :
    (outs1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).sq = k1_pay3 (k1_pay6 x0 x1 x2 x4 x3 x5 x6 x7) x8 (k1_pay5 (F := F)) := by
  unfold outs1_A; dsimp only
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  sl_unfold_words
  rw [View.canon_cons_unit_zero (S := S1x128) r1zeros2, View.readCov_unit_zero (S := S1x128) _ r1zeros2]
  simp only [View.readAt_eq_ld, harg1.read_unread, harg2.read_unread, harg3.read_unread, harg4.read_unread, harg5.read_unread, harg6.read_unread, harg7.read_unread, harg8.read_unread, harg9.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

end

section
variable (hc0 : ¬cond1_0 i) (hc1 : ¬cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32)

theorem out1_B_9_eq :
    (outs1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).tile = k1_pay1 (k1_pay6 x0 x1 x2 x4 x3 x5 x6 x7) x8 := by
  unfold outs1_B; dsimp only
  rw [View.read_writes_eq_canon _ _ _ (cover1_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem sout1_B_0_eq :
    (outs1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).sum = k1_pay2 (k1_pay6 x0 x1 x2 x4 x3 x5 x6 x7) x8 xs0 := by
  unfold outs1_B; dsimp only
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem sout1_B_1_eq :
    (outs1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).sq = k1_pay3 (k1_pay6 x0 x1 x2 x4 x3 x5 x6 x7) x8 xs1 := by
  unfold outs1_B; dsimp only
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

end

section
variable (hc0 : ¬cond1_0 i) (hc1 : cond1_1 i) (x0 : Vec F S1000x128 .f32) (x1 : Vec F S128x256 .f32) (x2 : Vec F S256 .f32) (x3 : Vec F S256 .f32) (x4 : Vec F S256 .f32) (x5 : Vec F S256 .f32) (x6 : Vec F S256 .f32) (x7 : Vec F S256x128 .f32) (x8 : Vec F S128 .f32) (xs0 : Vec F S1x128 .f32) (xs1 : Vec F S1x128 .f32)

theorem out1_C_9_eq :
    (outs1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).tile = k1_pay1 (k1_pay6 x0 x1 x2 x4 x3 x5 x6 x7) x8 := by
  unfold outs1_C; dsimp only
  rw [View.read_writes_eq_canon _ _ _ (cover1_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem out1_C_10_eq :
    (outs1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).sumOut = k1_pay2 (k1_pay6 x0 x1 x2 x4 x3 x5 x6 x7) x8 xs0 := by
  unfold outs1_C; dsimp only
  rw [View.read_writes_eq_canon _ _ _ (cover1_C_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem out1_C_11_eq :
    (outs1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).sqOut = k1_pay3 (k1_pay6 x0 x1 x2 x4 x3 x5 x6 x7) x8 xs1 := by
  unfold outs1_C; dsimp only
  rw [View.read_writes_eq_canon _ _ _ (cover1_C_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem sout1_C_0_eq :
    (outs1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).sum = k1_pay2 (k1_pay6 x0 x1 x2 x4 x3 x5 x6 x7) x8 xs0 := by
  unfold outs1_C; dsimp only
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

theorem sout1_C_1_eq :
    (outs1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).sq = k1_pay3 (k1_pay6 x0 x1 x2 x4 x3 x5 x6 x7) x8 xs1 := by
  unfold outs1_C; dsimp only
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  sl_unfold_words
  rw [View.canon_unit_zero r1zeros2]
  simp only [View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S1000x128) r1zeros2, View.ld_unit_zero (S := S128x256) r1zeros2, View.ld_unit_zero (S := S256) r1zeros1, View.ld_unit_zero (S := S256x128) r1zeros2, View.ld_unit_zero (S := S128) r1zeros1, View.ld_unit_zero (S := S1x128) r1zeros2, View.readCov_unit_zero (S := S1x128) _ r1zeros2]

end

end

end Cert.KernelIdeal.Fr

end
-- ==== Proof.Value.Pay1.lean ====
import proofs.«406289_j13400297963801_3_alg».proof.Proof.Gen.KernelIdeal.Skeleton
import proofs.«406289_j13400297963801_3_alg».proof.Proof.Value.Spec
import proofs.«406289_j13400297963801_3_alg».proof.Proof.Value.Pay0
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Val

open Cert.KernelIdeal Cert.KernelIdeal.Gen Idealize.ShloMosaic Idealize.ShloMosaic.ValueIdx
open scoped BigOperators

theorem rowRepeat_apply1 {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

theorem rsqrt_at1 {s : Shape} {φ : FTy} (x : FVec Ideal s φ) (i : s.Idx) : rsqrt x i = Ideal.rsqrt (x i) := rfl

theorem colSum_at (src : FVec Ideal S1000x128 .f32) (hφ : FKind.Formats .f32)
    (hacc : (0x00000000#32 : BitVec (FTy.bits .f32)) = FKind.add.neutral .f32 hφ) (j : Fin 128) :
    multiReduction (F := Ideal) .add [0] S128 src 0x00000000#32 reduces_S1000x128_S128 hφ hacc (ix1 j)
      = ∑ r : Fin 1000, src (ix2 r j) := by
  refine (Ideal.multiReduction_add_single src 0x00000000#32 reduces_S1000x128_S128 hφ hacc (ix1 j)).trans ?_
  refine Finset.sum_congr rfl fun k _ => congrArg src ?_
  funext c
  apply Fin.ext
  match c with
  | ⟨0, _⟩ => rfl
  | ⟨1, _⟩ => rfl

theorem pay1_1_at (v39 : FVec Ideal S1000x128 .f32) (v40 : Vec Ideal S128 .f32) (r : Fin 1000) (j : Fin 128) :
    k1_pay1 (F := Ideal) v39 v40 (ix2 r j) = v39 (ix2 r j) + v40 (ix1 j) := by
  unfold k1_pay1
  simp only [addf_apply, rowRepeat_apply1]

theorem pay1_2_at (v39 : FVec Ideal S1000x128 .f32) (v40 : Vec Ideal S128 .f32) (v45 : Vec Ideal S1x128 .f32) (j : Fin 128) :
    k1_pay2 (F := Ideal) v39 v40 v45 (ix2 0 j) = v45 (ix2 0 j) + ∑ r : Fin 1000, k1_pay1 (F := Ideal) v39 v40 (ix2 r j) := by
  unfold k1_pay2
  generalize k1_pay1 (F := Ideal) v39 v40 = h
  simp only [shapeCast_self, addf_apply]
  refine congrArg (v45 (ix2 0 j) + ·) ?_
  refine (shapeCast_a_1a_apply _ shapeCasts_S128_S1x128 0 j).trans ?_
  exact colSum_at h _ _ j

theorem pay1_3_at (v39 : FVec Ideal S1000x128 .f32) (v40 : Vec Ideal S128 .f32) (v52 : Vec Ideal S1x128 .f32) (j : Fin 128) :
    k1_pay3 (F := Ideal) v39 v40 v52 (ix2 0 j) = v52 (ix2 0 j) + ∑ r : Fin 1000, k1_pay1 (F := Ideal) v39 v40 (ix2 r j) * k1_pay1 (F := Ideal) v39 v40 (ix2 r j) := by
  unfold k1_pay3
  generalize k1_pay1 (F := Ideal) v39 v40 = h
  simp only [shapeCast_self, addf_apply]
  refine congrArg (v52 (ix2 0 j) + ·) ?_
  refine (shapeCast_a_1a_apply _ shapeCasts_S128_S1x128 0 j).trans ?_
  exact (colSum_at (mulf h h) _ _ j).trans (Finset.sum_congr rfl fun r _ => rfl)

theorem pay1_4_at (j : Fin 128) : k1_pay4 (F := Ideal) (ix2 0 j) = 0 := by
  unfold k1_pay4
  simp only [shapeCast_self, broadcast_apply, Ideal.ofBits_def, Ideal.ofBits_zero_f32]

theorem pay1_5_at (j : Fin 128) : k1_pay5 (F := Ideal) (ix2 0 j) = 0 := by
  unfold k1_pay5
  simp only [shapeCast_self, broadcast_apply, Ideal.ofBits_def, Ideal.ofBits_zero_f32]

theorem mm2_lhs_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem mm2_lhs_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem mm2_rhs_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem mm2_rhs_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

theorem matmul2_at {φ₁ φ₂ : FTy} (x : FVec Ideal S1000x256 φ₁) (w : FVec Ideal S256x128 φ₂) (p : Fin 1000) (c : Fin 128) :
    matmul dot_S1000x256_S256x128_S1000x128_1_0_0_1_n_n none x w (constant (F := Ideal) S1000x128 .f32 0x00000000#32) (ix2 p c)
      = ∑ i : Fin 256, x (ix2 p i) * w (ix2 i c) := by
  simp only [matmul]
  rw [Ideal.matmul_constant_zero_apply, ← Equiv.sum_comp (contrEquiv1 dot_S1000x256_S256x128_S1000x128_1_0_0_1_n_n 256 rfl rfl).symm]
  refine Finset.sum_congr rfl fun i _ => ?_
  have hk := contrEquiv1_symm_val dot_S1000x256_S256x128_S1000x128_1_0_0_1_n_n 256 rfl rfl i
  have el : dot_S1000x256_S256x128_S1000x128_1_0_0_1_n_n.lhsIdx (ix2 p c) ((contrEquiv1 dot_S1000x256_S256x128_S1000x128_1_0_0_1_n_n 256 rfl rfl).symm i) = ix2 p i := funext fun a => Fin.ext (by
    match a with
    | ⟨0, _⟩ => exact mm2_lhs_0 _ _
    | ⟨1, _⟩ => exact (mm2_lhs_1 _ _).trans hk)
  have er : dot_S1000x256_S256x128_S1000x128_1_0_0_1_n_n.rhsIdx (ix2 p c) ((contrEquiv1 dot_S1000x256_S256x128_S1000x128_1_0_0_1_n_n 256 rfl rfl).symm i) = ix2 i c := funext fun a => Fin.ext (by
    match a with
    | ⟨0, _⟩ => exact (mm2_rhs_0 _ _).trans hk
    | ⟨1, _⟩ => exact mm2_rhs_1 _ _)
  rw [el, er]

theorem pay1_6_at (v3 : Vec Ideal S1000x128 .f32) (v6 : Vec Ideal S128x256 .f32) (v9 v13 v18 v26 v30 : Vec Ideal S256 .f32)
    (v36 : Vec Ideal S256x128 .f32) (r : Fin 1000) (j : Fin 128) :
    k1_pay6 (F := Ideal) v3 v6 v9 v13 v18 v26 v30 v36 (ix2 r j)
      = ∑ k : Fin 256, max (((((∑ i : Fin 128, v3 (ix2 r i) * v6 (ix2 i k)) + v9 (ix1 k)) - v18 (ix1 k)) * Ideal.rsqrt (v13 (ix1 k) + epsBN)) * v26 (ix1 k) + v30 (ix1 k)) 0 * v36 (ix2 k j) := by
  unfold k1_pay6
  simp only [shapeCast_self]
  refine (matmul2_at _ _ r j).trans ?_
  refine Finset.sum_congr rfl fun k _ => ?_
  simp only [truncf_apply, maximumf_apply, addf_apply, mulf_apply, subf_apply, broadcast_apply, rsqrt_at1,
    rowRepeat_apply1, tileMatmul_at, Ideal.ofBits_def, Ideal.ofBits_zero_f32]
  rfl

end Cert.KernelIdeal.Val

end
-- ==== Proof.Value.Tile1.lean ====
import proofs.«406289_j13400297963801_3_alg».proof.Proof.KernelIdeal.R1Runs
import proofs.«406289_j13400297963801_3_alg».proof.Proof.Value.Spec
import proofs.«406289_j13400297963801_3_alg».proof.Proof.Value.Pay1
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open scoped BigOperators

theorem tile1_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0 ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

abbrev tile1 (t : Fin cfg1.N) : Fin 10 := ⟨t.val, lt_of_lt_of_eq t.isLt N_1⟩

section Blocks

variable (V : (c : Dev nD) → (b : Ref sig .tc) → Buf (Elt Ideal) ((c : Thread nD τ).loc b))

abbrev G1 (c : Dev nD) : Fin 10000 → Fin 256 → EReal :=
  lin (at2 (R := 10000) (C := 128) (V c main_v17_0)) (at2 (R := 128) (C := 256) (V c main_arg3)) (at1 (C := 256) (V c main_arg4))

abbrev G2 (c : Dev nD) : Fin 10000 → Fin 128 → EReal :=
  lin (bnRelu (G1 V c) (at1 (C := 256) (V c main_v20)) (at1 (C := 256) (V c main_v25)) (at1 (C := 256) (V c main_arg5)) (at1 (C := 256) (V c main_arg6)))
    (at2 (R := 256) (C := 128) (V c main_arg7)) (at1 (C := 128) (V c main_arg8))

theorem iblk1_0_at (c : Dev nD) (t : Fin cfg1.N) (y : Fin 1000) (k : Fin 128) :
    (iblk1 V c 0 t : Vec Ideal S1000x128 .f32) (ix2 y k) = at2 (V c main_v17_0) (tileRow (tile1 t) y) k := by
  obtain ⟨e0, e1, -⟩ := tile1_index t
  show V c main_v17_0 (((cfg1.win 0).blk t).view.emb (ix2 y k)) = V c main_v17_0 (ix2 (tileRow (tile1 t) y) k)
  refine congrArg (V c main_v17_0) (funext fun a => Fin.ext ?_)
  match a with
  | ⟨0, _⟩ => show win1_0.index t (0 : Fin 2) * 1000 + 1 * y.val = 1000 * t.val + y.val; omega
  | ⟨1, _⟩ => show win1_0.index t (1 : Fin 2) * 128 + 1 * k.val = k.val; omega

theorem iblk1_1_at (c : Dev nD) (t : Fin cfg1.N) (k : Fin 128) (j : Fin 256) :
    (iblk1 V c 1 t : Vec Ideal S128x256 .f32) (ix2 k j) = at2 (V c main_arg3) k j := by
  obtain ⟨-, -, e0, e1, -⟩ := tile1_index t
  show V c main_arg3 (((cfg1.win 1).blk t).view.emb (ix2 k j)) = V c main_arg3 (ix2 k j)
  refine congrArg (V c main_arg3) (funext fun a => Fin.ext ?_)
  match a with
  | ⟨0, _⟩ => show win1_1.index t (0 : Fin 2) * 128 + 1 * k.val = k.val; omega
  | ⟨1, _⟩ => show win1_1.index t (1 : Fin 2) * 256 + 1 * j.val = j.val; omega

theorem iblk1_2_at (c : Dev nD) (t : Fin cfg1.N) (j : Fin 256) :
    (iblk1 V c 2 t : Vec Ideal S256 .f32) (ix1 j) = at1 (V c main_arg4) j := by
  obtain ⟨-, -, -, -, e, -⟩ := tile1_index t
  show V c main_arg4 (((cfg1.win 2).blk t).view.emb (ix1 j)) = V c main_arg4 (ix1 j)
  refine congrArg (V c main_arg4) (funext fun a => Fin.ext ?_)
  match a with
  | ⟨0, _⟩ => show win1_2.index t (0 : Fin 1) * 256 + 1 * j.val = j.val; omega

theorem iblk1_3_at (c : Dev nD) (t : Fin cfg1.N) (j : Fin 256) :
    (iblk1 V c 3 t : Vec Ideal S256 .f32) (ix1 j) = at1 (V c main_v20) j := by
  obtain ⟨-, -, -, -, -, e, -⟩ := tile1_index t
  show V c main_v20 (((cfg1.win 3).blk t).view.emb (ix1 j)) = V c main_v20 (ix1 j)
  refine congrArg (V c main_v20) (funext fun a => Fin.ext ?_)
  match a with
  | ⟨0, _⟩ => show win1_3.index t (0 : Fin 1) * 256 + 1 * j.val = j.val; omega

theorem iblk1_4_at (c : Dev nD) (t : Fin cfg1.N) (j : Fin 256) :
    (iblk1 V c 4 t : Vec Ideal S256 .f32) (ix1 j) = at1 (V c main_v25) j := by
  obtain ⟨-, -, -, -, -, -, e, -⟩ := tile1_index t
  show V c main_v25 (((cfg1.win 4).blk t).view.emb (ix1 j)) = V c main_v25 (ix1 j)
  refine congrArg (V c main_v25) (funext fun a => Fin.ext ?_)
  match a with
  | ⟨0, _⟩ => show win1_4.index t (0 : Fin 1) * 256 + 1 * j.val = j.val; omega

theorem iblk1_5_at (c : Dev nD) (t : Fin cfg1.N) (j : Fin 256) :
    (iblk1 V c 5 t : Vec Ideal S256 .f32) (ix1 j) = at1 (V c main_arg5) j := by
  obtain ⟨-, -, -, -, -, -, -, e, -⟩ := tile1_index t
  show V c main_arg5 (((cfg1.win 5).blk t).view.emb (ix1 j)) = V c main_arg5 (ix1 j)
  refine congrArg (V c main_arg5) (funext fun a => Fin.ext ?_)
  match a with
  | ⟨0, _⟩ => show win1_5.index t (0 : Fin 1) * 256 + 1 * j.val = j.val; omega

theorem iblk1_6_at (c : Dev nD) (t : Fin cfg1.N) (j : Fin 256) :
    (iblk1 V c 6 t : Vec Ideal S256 .f32) (ix1 j) = at1 (V c main_arg6) j := by
  obtain ⟨-, -, -, -, -, -, -, -, e, -⟩ := tile1_index t
  show V c main_arg6 (((cfg1.win 6).blk t).view.emb (ix1 j)) = V c main_arg6 (ix1 j)
  refine congrArg (V c main_arg6) (funext fun a => Fin.ext ?_)
  match a with
  | ⟨0, _⟩ => show win1_6.index t (0 : Fin 1) * 256 + 1 * j.val = j.val; omega

theorem iblk1_7_at (c : Dev nD) (t : Fin cfg1.N) (k : Fin 256) (j : Fin 128) :
    (iblk1 V c 7 t : Vec Ideal S256x128 .f32) (ix2 k j) = at2 (V c main_arg7) k j := by
  obtain ⟨-, -, -, -, -, -, -, -, -, e0, e1, -⟩ := tile1_index t
  show V c main_arg7 (((cfg1.win 7).blk t).view.emb (ix2 k j)) = V c main_arg7 (ix2 k j)
  refine congrArg (V c main_arg7) (funext fun a => Fin.ext ?_)
  match a with
  | ⟨0, _⟩ => show win1_7.index t (0 : Fin 2) * 256 + 1 * k.val = k.val; omega
  | ⟨1, _⟩ => show win1_7.index t (1 : Fin 2) * 128 + 1 * j.val = j.val; omega

theorem iblk1_8_at (c : Dev nD) (t : Fin cfg1.N) (j : Fin 128) :
    (iblk1 V c 8 t : Vec Ideal S128 .f32) (ix1 j) = at1 (V c main_arg8) j := by
  obtain ⟨-, -, -, -, -, -, -, -, -, -, -, e⟩ := tile1_index t
  show V c main_arg8 (((cfg1.win 8).blk t).view.emb (ix1 j)) = V c main_arg8 (ix1 j)
  refine congrArg (V c main_arg8) (funext fun a => Fin.ext ?_)
  match a with
  | ⟨0, _⟩ => show win1_8.index t (0 : Fin 1) * 128 + 1 * j.val = j.val; omega

end Blocks

theorem h2_of_reads (x0 : Vec Ideal S1000x128 .f32) (x1 : Vec Ideal S128x256 .f32) (x2 x3 x4 x5 x6 : Vec Ideal S256 .f32)
    (x7 : Vec Ideal S256x128 .f32) (x8 : Vec Ideal S128 .f32)
    (a0 : Fin 10000 → Fin 128 → EReal) (w1 : Fin 128 → Fin 256 → EReal) (b1 mu var gamma beta : Fin 256 → EReal)
    (w2 : Fin 256 → Fin 128 → EReal) (b2 : Fin 128 → EReal) (R : Fin 10000) (y : Fin 1000) (j : Fin 128)
    (h0 : ∀ k, x0 (ix2 y k) = a0 R k) (h1 : ∀ i k, x1 (ix2 i k) = w1 i k) (h2 : ∀ k, x2 (ix1 k) = b1 k)
    (h3 : ∀ k, x3 (ix1 k) = mu k) (h4 : ∀ k, x4 (ix1 k) = var k) (h5 : ∀ k, x5 (ix1 k) = gamma k)
    (h6 : ∀ k, x6 (ix1 k) = beta k) (h7 : ∀ k q, x7 (ix2 k q) = w2 k q) (h8 : ∀ q, x8 (ix1 q) = b2 q) :
    k1_pay1 (F := Ideal) (k1_pay6 (F := Ideal) x0 x1 x2 x4 x3 x5 x6 x7) x8 (ix2 y j)
      = lin (bnRelu (lin a0 w1 b1) mu var gamma beta) w2 b2 R j := by
  rw [pay1_1_at, pay1_6_at]
  simp only [h0, h1, h2, h3, h4, h5, h6, h7, h8]
  rfl

section Tiles

variable (V : (c : Dev nD) → (b : Ref sig .tc) → Buf (Elt Ideal) ((c : Thread nD τ).loc b))

theorem tile1_h2 (c : Dev nD) (t : Fin cfg1.N) (y : Fin 1000) (j : Fin 128) :
    k1_pay1 (F := Ideal)
        (k1_pay6 (F := Ideal) (iblk1 V c 0 t) (iblk1 V c 1 t) (iblk1 V c 2 t) (iblk1 V c 4 t) (iblk1 V c 3 t) (iblk1 V c 5 t)
          (iblk1 V c 6 t) (iblk1 V c 7 t))
        (iblk1 V c 8 t) (ix2 y j)
      = G2 V c (tileRow (tile1 t) y) j :=
  h2_of_reads (iblk1 V c 0 t) (iblk1 V c 1 t) (iblk1 V c 2 t) (iblk1 V c 3 t) (iblk1 V c 4 t) (iblk1 V c 5 t) (iblk1 V c 6 t)
    (iblk1 V c 7 t) (iblk1 V c 8 t) _ _ _ _ _ _ _ _ _ (tileRow (tile1 t) y) y j
    (iblk1_0_at V c t y) (iblk1_1_at V c t) (iblk1_2_at V c t) (iblk1_3_at V c t) (iblk1_4_at V c t) (iblk1_5_at V c t)
    (iblk1_6_at V c t) (iblk1_7_at V c t) (iblk1_8_at V c t)

theorem tile1_sum (c : Dev nD) (t : Fin cfg1.N) (acc : Vec Ideal S1x128 .f32) (j : Fin 128) :
    k1_pay2 (F := Ideal)
        (k1_pay6 (F := Ideal) (iblk1 V c 0 t) (iblk1 V c 1 t) (iblk1 V c 2 t) (iblk1 V c 4 t) (iblk1 V c 3 t) (iblk1 V c 5 t)
          (iblk1 V c 6 t) (iblk1 V c 7 t))
        (iblk1 V c 8 t) acc (ix2 0 j)
      = acc (ix2 0 j) + tileSum (G2 V c) (tile1 t) j := by
  refine (pay1_2_at _ _ acc j).trans ?_
  refine congrArg (acc (ix2 0 j) + ·) ?_
  exact Finset.sum_congr rfl fun r _ => tile1_h2 V c t r j

theorem tile1_sumsq (c : Dev nD) (t : Fin cfg1.N) (acc : Vec Ideal S1x128 .f32) (j : Fin 128) :
    k1_pay3 (F := Ideal)
        (k1_pay6 (F := Ideal) (iblk1 V c 0 t) (iblk1 V c 1 t) (iblk1 V c 2 t) (iblk1 V c 4 t) (iblk1 V c 3 t) (iblk1 V c 5 t)
          (iblk1 V c 6 t) (iblk1 V c 7 t))
        (iblk1 V c 8 t) acc (ix2 0 j)
      = acc (ix2 0 j) + tileSumSq (G2 V c) (tile1 t) j := by
  refine (pay1_3_at _ _ acc j).trans ?_
  refine congrArg (acc (ix2 0 j) + ·) ?_
  exact Finset.sum_congr rfl fun r _ => congrArg₂ (· * ·) (tile1_h2 V c t r j) (tile1_h2 V c t r j)

end Tiles

end Cert.KernelIdeal.Val

end
-- ==== Proof.Value.Reg1Core.lean ====
import proofs.«406289_j13400297963801_3_alg».proof.Proof.PointOuts
import proofs.«406289_j13400297963801_3_alg».proof.Proof.Gen.KernelIdeal.Launch
import proofs.«406289_j13400297963801_3_alg».proof.Proof.Gen.KernelIdeal.Points
import proofs.«406289_j13400297963801_3_alg».proof.Proof.Value.Spec
import proofs.«406289_j13400297963801_3_alg».proof.Proof.Value.Math
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

namespace Reg1

abbrev Left : Type := PointOuts Ideal S1000x128 S1x128

theorem N10 : cfg1.N = 10 := N_1

abbrev tileOf (t : Fin cfg1.N) : Fin 10 := ⟨t.val, lt_of_lt_of_eq t.isLt N_1⟩

theorem out_index : ∀ t : Fin cfg1.N,
    win1_9.index t (0 : Fin 2) = t.val ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

theorem tile_onto : ∀ q : Fin 10, ∃ t : Fin cfg1.N, win1_9.index t (0 : Fin 2) = q.val ∧ win1_9.index t (1 : Fin 2) = 0 :=
  (by decide +kernel : ∀ q : Fin 10, ∃ t : Fin grid1.N, win1_9.index t (0 : Fin 2) = q.val ∧ win1_9.index t (1 : Fin 2) = 0)

theorem last_point : ∃ t : Fin cfg1.N, t.val = 9 :=
  (by decide +kernel : ∃ t : Fin grid1.N, t.val = 9)

theorem mem_tile9 (t : Fin cfg1.N) (i : S10000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole main_v26_0).slice (win1_9.rect t)).set ↔ _
  rw [View.set_slice_whole, Rect.mem_set_unit]
  exact Iff.rfl

theorem mem_blk10 (t : Fin cfg1.N) (i : S1x128.Idx) :
    i ∈ ((cfg1.win 10).blk t).view.set ↔ ∀ a : Fin 2, win1_10.index t a * S1x128.size a ≤ (i a).val ∧ (i a).val < win1_10.index t a * S1x128.size a + S1x128.size a := by
  show i ∈ ((View.whole main_v26_1).slice (win1_10.rect t)).set ↔ _
  rw [View.set_slice_whole, Rect.mem_set_unit]
  exact Iff.rfl

theorem mem_blk11 (t : Fin cfg1.N) (i : S1x128.Idx) :
    i ∈ ((cfg1.win 11).blk t).view.set ↔ ∀ a : Fin 2, win1_11.index t a * S1x128.size a ≤ (i a).val ∧ (i a).val < win1_11.index t a * S1x128.size a + S1x128.size a := by
  show i ∈ ((View.whole main_v26_2).slice (win1_11.rect t)).set ↔ _
  rw [View.set_slice_whole, Rect.mem_set_unit]
  exact Iff.rfl

theorem cover9 (i : S10000x128.Idx) :
    ∃ t : Fin cfg1.N, (cfg1.win 9).flush t = true ∧ i ∈ ((cfg1.win 9).blk t).view.set := by
  have hi0 : (i 0).val < 10000 := (i 0).isLt
  have hi1 : (i 1).val < 128 := (i 1).isLt
  obtain ⟨t, ht0, ht1⟩ := tile_onto ⟨(i 0).val / 1000, by omega⟩
  have q0 : win1_9.index t (0 : Fin 2) = (i 0).val / 1000 := ht0
  refine ⟨t, flush1_9 t, ?_⟩
  rw [mem_tile9]
  intro a
  match a with
  | ⟨0, _⟩ => show win1_9.index t (0 : Fin 2) * 1000 ≤ (i 0).val ∧ (i 0).val < win1_9.index t (0 : Fin 2) * 1000 + 1000; omega
  | ⟨1, _⟩ => show win1_9.index t (1 : Fin 2) * 128 ≤ (i 1).val ∧ (i 1).val < win1_9.index t (1 : Fin 2) * 128 + 128; omega

theorem cover10 (i : S1x128.Idx) :
    ∃ t : Fin cfg1.N, (cfg1.win 10).flush t = true ∧ i ∈ ((cfg1.win 10).blk t).view.set := by
  have hi0 : (i 0).val < 1 := (i 0).isLt
  have hi1 : (i 1).val < 128 := (i 1).isLt
  obtain ⟨t, ht⟩ := last_point
  obtain ⟨-, -, e0, e1, -, -⟩ := out_index t
  refine ⟨t, (flush1_10 t).mpr (by rw [ht]), ?_⟩
  rw [mem_blk10]
  intro a
  match a with
  | ⟨0, _⟩ => show win1_10.index t (0 : Fin 2) * 1 ≤ (i 0).val ∧ (i 0).val < win1_10.index t (0 : Fin 2) * 1 + 1; omega
  | ⟨1, _⟩ => show win1_10.index t (1 : Fin 2) * 128 ≤ (i 1).val ∧ (i 1).val < win1_10.index t (1 : Fin 2) * 128 + 128; omega

theorem cover11 (i : S1x128.Idx) :
    ∃ t : Fin cfg1.N, (cfg1.win 11).flush t = true ∧ i ∈ ((cfg1.win 11).blk t).view.set := by
  have hi0 : (i 0).val < 1 := (i 0).isLt
  have hi1 : (i 1).val < 128 := (i 1).isLt
  obtain ⟨t, ht⟩ := last_point
  obtain ⟨-, -, -, -, e0, e1⟩ := out_index t
  refine ⟨t, (flush1_11 t).mpr (by rw [ht]), ?_⟩
  rw [mem_blk11]
  intro a
  match a with
  | ⟨0, _⟩ => show win1_11.index t (0 : Fin 2) * 1 ≤ (i 0).val ∧ (i 0).val < win1_11.index t (0 : Fin 2) * 1 + 1; omega
  | ⟨1, _⟩ => show win1_11.index t (1 : Fin 2) * 128 ≤ (i 1).val ∧ (i 1).val < win1_11.index t (1 : Fin 2) * 128 + 128; omega

section Abstract
variable {c : Dev nD} (dat : Dat τ (Elt Ideal) Unit ℕ (UR sig nD τ) ℕ cfg1 c)
  (S : (n : ℕ) → n < cfg1.N → Left) (g : Fin 10000 → Fin 128 → EReal)

theorem total_after (π : Left → Vec Ideal S1x128 .f32) (f : Fin 10 → Fin 128 → EReal)
    (hA : ∀ t : Fin cfg1.N, t.val = 0 → ∀ j : Fin 128, π (S t.val t.isLt) (ix2 0 j) = 0 + f (tileOf t) j)
    (hB : ∀ t : Fin cfg1.N, t.val ≠ 0 → ∀ j : Fin 128, π (S t.val t.isLt) (ix2 0 j)
        = π (S (t.val - 1) (Nat.lt_of_le_of_lt (Nat.sub_le _ _) t.isLt)) (ix2 0 j) + f (tileOf t) j)
    (n : ℕ) (hn : n < cfg1.N) (hn' : n < 10) (j : Fin 128) : π (S n hn) (ix2 0 j) = runTotal f (n + 1) hn' j :=
  runTotal_of_steps f (fun n h j => π (S n (N10.symm ▸ h)) (ix2 0 j))
    (fun h j => hA ⟨0, N10.symm ▸ h⟩ rfl j)
    (fun n h j => hB ⟨n + 1, N10.symm ▸ h⟩ (Nat.succ_ne_zero n) j) n hn' j

theorem arrAt9_of (hafter : ∀ t : Fin cfg1.N, dat.after 9 t = (S t.val t.isLt).tile)
    (h9 : ∀ (t : Fin cfg1.N) (y : Fin 1000) (j : Fin 128), (S t.val t.isLt).tile (ix2 y j) = g (tileRow (tileOf t) y) j)
    (r : Fin 10000) (j : Fin 128) : dat.arrAt 9 cfg1.N (ix2 r j) = g r j := by
  have hfl : ∀ t : Fin cfg1.N, (cfg1.win 9).flush t = true →
      dat.flushed 9 t = ((cfg1.win 9).blk t).view.read (Elt Ideal) (fun i : S10000x128.Idx => g (i 0) (i 1)) := by
    intro t _
    obtain ⟨e0, e1, -, -, -, -⟩ := out_index t
    show (cfg1.win 9).cut (grid1.coords t) (dat.after 9 t) = _
    rw [hafter]
    funext y
    obtain ⟨p, q, rfl⟩ : ∃ (p : Fin 1000) (q : Fin 128), y = ix2 p q := ⟨y 0, y 1, eq_ix2 y⟩
    refine (h9 t p q).trans ?_
    have a0 : tileRow (tileOf t) p = (((cfg1.win 9).blk t).view.emb (ix2 p q)) 0 :=
      Fin.ext (by show 1000 * t.val + p.val = win1_9.index t (0 : Fin 2) * 1000 + 1 * p.val; omega)
    have a1 : q = (((cfg1.win 9).blk t).view.emb (ix2 p q)) 1 :=
      Fin.ext (by show q.val = win1_9.index t (1 : Fin 2) * 128 + 1 * q.val; omega)
    exact congrArg₂ g a0 a1
  exact congrFun (dat.arrAt_eq_of_cover 9 (fun i : S10000x128.Idx => g (i 0) (i 1)) hfl cover9) (ix2 r j)

theorem arrAt10_of (hafter : ∀ t : Fin cfg1.N, dat.after 10 t = (S t.val t.isLt).sumOut)
    (hC : ∀ t : Fin cfg1.N, t.val = 9 → ∀ j : Fin 128, (S t.val t.isLt).sumOut (ix2 0 j) = (S t.val t.isLt).sum (ix2 0 j))
    (hA : ∀ t : Fin cfg1.N, t.val = 0 → ∀ j : Fin 128, (S t.val t.isLt).sum (ix2 0 j) = 0 + tileSum g (tileOf t) j)
    (hB : ∀ t : Fin cfg1.N, t.val ≠ 0 → ∀ j : Fin 128, (S t.val t.isLt).sum (ix2 0 j)
        = (S (t.val - 1) (Nat.lt_of_le_of_lt (Nat.sub_le _ _) t.isLt)).sum (ix2 0 j) + tileSum g (tileOf t) j)
    (j : Fin 128) : dat.arrAt 10 cfg1.N (ix2 0 j) = colSum g j := by
  have hfl : ∀ t : Fin cfg1.N, (cfg1.win 10).flush t = true →
      dat.flushed 10 t = ((cfg1.win 10).blk t).view.read (Elt Ideal) (fun i : S1x128.Idx => colSum g (i 1)) := by
    intro t hf
    have ht : t.val = 9 := by have h1 := (flush1_10 t).mp hf; have h2 := t.isLt; have h3 := N10; omega
    obtain ⟨-, -, e0, e1, -, -⟩ := out_index t
    show (cfg1.win 10).cut (grid1.coords t) (dat.after 10 t) = _
    rw [hafter]
    funext y
    obtain ⟨u, q, rfl⟩ : ∃ (u : Fin 1) (q : Fin 128), y = ix2 u q := ⟨y 0, y 1, eq_ix2 y⟩
    obtain rfl : u = 0 := Subsingleton.elim u 0
    refine (hC t ht q).trans ?_
    refine (total_after S (fun s => s.sum) (tileSum g) hA hB t.val t.isLt (by have h2 := t.isLt; have h3 := N10; omega) q).trans ?_
    have e1 : (((cfg1.win 10).blk t).view.emb (ix2 0 q)) 1 = q :=
      Fin.ext (by show win1_10.index t (1 : Fin 2) * 128 + 1 * q.val = q.val; omega)
    refine Eq.trans ?_ (congrArg (colSum g) e1.symm)
    have hten : ∀ (n : ℕ) (h : n + 1 ≤ 10), n = 9 → runTotal (tileSum g) (n + 1) h q = colSum g q := by
      intro n h e; subst e; exact runTotal_tileSum g q
    exact hten t.val _ ht
  exact congrFun (dat.arrAt_eq_of_cover 10 (fun i : S1x128.Idx => colSum g (i 1)) hfl cover10) (ix2 0 j)

theorem arrAt11_of (hafter : ∀ t : Fin cfg1.N, dat.after 11 t = (S t.val t.isLt).sqOut)
    (hC : ∀ t : Fin cfg1.N, t.val = 9 → ∀ j : Fin 128, (S t.val t.isLt).sqOut (ix2 0 j) = (S t.val t.isLt).sq (ix2 0 j))
    (hA : ∀ t : Fin cfg1.N, t.val = 0 → ∀ j : Fin 128, (S t.val t.isLt).sq (ix2 0 j) = 0 + tileSumSq g (tileOf t) j)
    (hB : ∀ t : Fin cfg1.N, t.val ≠ 0 → ∀ j : Fin 128, (S t.val t.isLt).sq (ix2 0 j)
        = (S (t.val - 1) (Nat.lt_of_le_of_lt (Nat.sub_le _ _) t.isLt)).sq (ix2 0 j) + tileSumSq g (tileOf t) j)
    (j : Fin 128) : dat.arrAt 11 cfg1.N (ix2 0 j) = colSumSq g j := by
  have hfl : ∀ t : Fin cfg1.N, (cfg1.win 11).flush t = true →
      dat.flushed 11 t = ((cfg1.win 11).blk t).view.read (Elt Ideal) (fun i : S1x128.Idx => colSumSq g (i 1)) := by
    intro t hf
    have ht : t.val = 9 := by have h1 := (flush1_11 t).mp hf; have h2 := t.isLt; have h3 := N10; omega
    obtain ⟨-, -, -, -, e0, e1⟩ := out_index t
    show (cfg1.win 11).cut (grid1.coords t) (dat.after 11 t) = _
    rw [hafter]
    funext y
    obtain ⟨u, q, rfl⟩ : ∃ (u : Fin 1) (q : Fin 128), y = ix2 u q := ⟨y 0, y 1, eq_ix2 y⟩
    obtain rfl : u = 0 := Subsingleton.elim u 0
    refine (hC t ht q).trans ?_
    refine (total_after S (fun s => s.sq) (tileSumSq g) hA hB t.val t.isLt (by have h2 := t.isLt; have h3 := N10; omega) q).trans ?_
    have e1 : (((cfg1.win 11).blk t).view.emb (ix2 0 q)) 1 = q :=
      Fin.ext (by show win1_11.index t (1 : Fin 2) * 128 + 1 * q.val = q.val; omega)
    refine Eq.trans ?_ (congrArg (colSumSq g) e1.symm)
    have hten : ∀ (n : ℕ) (h : n + 1 ≤ 10), n = 9 → runTotal (tileSumSq g) (n + 1) h q = colSumSq g q := by
      intro n h e; subst e; exact runTotal_tileSumSq g q
    exact hten t.val _ ht
  exact congrFun (dat.arrAt_eq_of_cover 11 (fun i : S1x128.Idx => colSumSq g (i 1)) hfl cover11) (ix2 0 j)

end Abstract

end Reg1

end Cert.KernelIdeal.Val

end
-- ==== Proof.Value.Reg1.lean ====
import proofs.«406289_j13400297963801_3_alg».proof.Proof.KernelIdeal.R1
import proofs.«406289_j13400297963801_3_alg».proof.Proof.Value.R1Pieces
import proofs.«406289_j13400297963801_3_alg».proof.Proof.Value.Tile1
import proofs.«406289_j13400297963801_3_alg».proof.Proof.Value.Reg1Core

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)
open scoped BigOperators

namespace Reg1

section
variable (V : (c : Dev nD) → (b : Ref sig .tc) → Buf (Elt Ideal) ((c : Thread nD τ).loc b))

theorem tile_left (c : Dev nD) (t : Fin cfg1.N) (y : Fin 1000) (j : Fin 128) :
    (outsAt1 (F := Ideal) V c t.val t.isLt).tile (ix2 y j) = G2 V c (tileRow (tileOf t) y) j := by
  by_cases h0 : t.val = 0
  · have h1 : ¬t.val = 9 := by omega
    rw [outsAt1_A V c t h0 h1]
    refine (congrFun (out1_A_9_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) (ix2 y j)).trans ?_
    exact tile1_h2 V c t y j
  · by_cases h1 : t.val = 9
    · rw [outsAt1_C V c t h0 h1]
      refine (congrFun (out1_C_9_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 y j)).trans ?_
      exact tile1_h2 V c t y j
    · rw [outsAt1_B V c t h0 h1]
      refine (congrFun (out1_B_9_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 y j)).trans ?_
      exact tile1_h2 V c t y j

theorem first0 (c : Dev nD) (t : Fin cfg1.N) (h0 : t.val = 0) (j : Fin 128) :
    (outsAt1 (F := Ideal) V c t.val t.isLt).sum (ix2 0 j) = 0 + tileSum (G2 V c) (tileOf t) j := by
  have h1 : ¬t.val = 9 := by omega
  rw [outsAt1_A V c t h0 h1]
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) (ix2 0 j)).trans ?_
  refine (tile1_sum V c t (k1_pay4 (F := Ideal)) j).trans ?_
  exact congrArg (· + tileSum (G2 V c) (tileOf t) j) (pay1_4_at j)

theorem later0 (c : Dev nD) (t : Fin cfg1.N) (h0 : t.val ≠ 0) (j : Fin 128) :
    (outsAt1 (F := Ideal) V c t.val t.isLt).sum (ix2 0 j)
      = (outsAt1 V c (t.val - 1) (Nat.lt_of_le_of_lt (Nat.sub_le _ _) t.isLt)).sum (ix2 0 j) + tileSum (G2 V c) (tileOf t) j := by
  by_cases h1 : t.val = 9
  · rw [outsAt1_C V c t h0 h1]
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).trans ?_
    exact tile1_sum V c t (outsAt1 V c (t.val - 1) (Nat.lt_of_le_of_lt (Nat.sub_le _ _) t.isLt)).sum j
  · rw [outsAt1_B V c t h0 h1]
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).trans ?_
    exact tile1_sum V c t (outsAt1 V c (t.val - 1) (Nat.lt_of_le_of_lt (Nat.sub_le _ _) t.isLt)).sum j

theorem first1 (c : Dev nD) (t : Fin cfg1.N) (h0 : t.val = 0) (j : Fin 128) :
    (outsAt1 (F := Ideal) V c t.val t.isLt).sq (ix2 0 j) = 0 + tileSumSq (G2 V c) (tileOf t) j := by
  have h1 : ¬t.val = 9 := by omega
  rw [outsAt1_A V c t h0 h1]
  refine (congrFun (sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) (ix2 0 j)).trans ?_
  refine (tile1_sumsq V c t (k1_pay5 (F := Ideal)) j).trans ?_
  exact congrArg (· + tileSumSq (G2 V c) (tileOf t) j) (pay1_5_at j)

theorem later1 (c : Dev nD) (t : Fin cfg1.N) (h0 : t.val ≠ 0) (j : Fin 128) :
    (outsAt1 (F := Ideal) V c t.val t.isLt).sq (ix2 0 j)
      = (outsAt1 V c (t.val - 1) (Nat.lt_of_le_of_lt (Nat.sub_le _ _) t.isLt)).sq (ix2 0 j) + tileSumSq (G2 V c) (tileOf t) j := by
  by_cases h1 : t.val = 9
  · rw [outsAt1_C V c t h0 h1]
    refine (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).trans ?_
    exact tile1_sumsq V c t (outsAt1 V c (t.val - 1) (Nat.lt_of_le_of_lt (Nat.sub_le _ _) t.isLt)).sq j
  · rw [outsAt1_B V c t h0 h1]
    refine (congrFun (sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).trans ?_
    exact tile1_sumsq V c t (outsAt1 V c (t.val - 1) (Nat.lt_of_le_of_lt (Nat.sub_le _ _) t.isLt)).sq j

theorem last10 (c : Dev nD) (t : Fin cfg1.N) (h1 : t.val = 9) (j : Fin 128) :
    (outsAt1 (F := Ideal) V c t.val t.isLt).sumOut (ix2 0 j) = (outsAt1 (F := Ideal) V c t.val t.isLt).sum (ix2 0 j) := by
  have h0 : ¬t.val = 0 := by omega
  rw [outsAt1_C V c t h0 h1]
  exact (congrFun (out1_C_10_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).trans
    (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).symm

theorem last11 (c : Dev nD) (t : Fin cfg1.N) (h1 : t.val = 9) (j : Fin 128) :
    (outsAt1 (F := Ideal) V c t.val t.isLt).sqOut (ix2 0 j) = (outsAt1 (F := Ideal) V c t.val t.isLt).sq (ix2 0 j) := by
  have h0 : ¬t.val = 0 := by omega
  rw [outsAt1_C V c t h0 h1]
  exact (congrFun (out1_C_11_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).trans
    (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).sum (outsAt1 V c (t.val - 1) (Nat.lt_of_le_of_lt (Nat.sub_le _ _) t.isLt)).sq) (ix2 0 j)).symm

end

end Reg1

section
variable (V : (c : Dev nD) → (b : Ref sig .tc) → Buf (Elt Ideal) ((c : Thread nD τ).loc b))

theorem arrAt1_9 (c : Dev nD) (r : Fin 10000) (j : Fin 128) :
    (dat1 (F := Ideal) V c).arrAt 9 cfg1.N (ix2 r j) = G2 V c r j :=
  Reg1.arrAt9_of (dat1 (F := Ideal) V c) (outsAt1 (F := Ideal) V c) (G2 V c) (after1_9 V c) (Reg1.tile_left V c) r j

theorem arrAt1_10 (c : Dev nD) (j : Fin 128) :
    (dat1 (F := Ideal) V c).arrAt 10 cfg1.N (ix2 0 j) = colSum (G2 V c) j :=
  Reg1.arrAt10_of (dat1 (F := Ideal) V c) (outsAt1 (F := Ideal) V c) (G2 V c) (after1_10 V c) (Reg1.last10 V c)
    (Reg1.first0 V c) (Reg1.later0 V c) j

theorem arrAt1_11 (c : Dev nD) (j : Fin 128) :
    (dat1 (F := Ideal) V c).arrAt 11 cfg1.N (ix2 0 j) = colSumSq (G2 V c) j :=
  Reg1.arrAt11_of (dat1 (F := Ideal) V c) (outsAt1 (F := Ideal) V c) (G2 V c) (after1_11 V c) (Reg1.last11 V c)
    (Reg1.first1 V c) (Reg1.later1 V c) j

end

end Cert.KernelIdeal.Val

end
-- ==== Proof.Value.Pay2.lean ====
import proofs.«406289_j13400297963801_3_alg».proof.Proof.Gen.KernelIdeal.Skeleton
import proofs.«406289_j13400297963801_3_alg».proof.Proof.Value.Spec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Val

open Cert.KernelIdeal Cert.KernelIdeal.Gen Idealize.ShloMosaic Idealize.ShloMosaic.ValueIdx
open scoped BigOperators

theorem rowRepeat_apply2 {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

theorem rsqrt_at2 {s : Shape} {φ : FTy} (x : FVec Ideal s φ) (i : s.Idx) : rsqrt x i = Ideal.rsqrt (x i) := rfl

theorem pay2_1_at (v0 : Vec Ideal S1000x128 .f32) (v2 v7 v15 v19 : Vec Ideal S128 .f32) (r : Fin 1000) (j : Fin 128) :
    k2_pay1 (F := Ideal) v0 v2 v7 v15 v19 (ix2 r j)
      = max ((v0 (ix2 r j) - v7 (ix1 j)) * Ideal.rsqrt (v2 (ix1 j) + epsBN) * v15 (ix1 j) + v19 (ix1 j)) 0 := by
  unfold k2_pay1
  simp only [shapeCast_self, maximumf_apply, addf_apply, mulf_apply, subf_apply, broadcast_apply, rsqrt_at2,
    rowRepeat_apply2, Ideal.ofBits_def, Ideal.ofBits_zero_f32]
  rfl

end Cert.KernelIdeal.Val

end
-- ==== Proof.Value.Reg2.lean ====
import proofs.«406289_j13400297963801_3_alg».proof.Proof.KernelIdeal.R2
import proofs.«406289_j13400297963801_3_alg».proof.Proof.Value.Spec
import proofs.«406289_j13400297963801_3_alg».proof.Proof.Value.Pay2
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

namespace Reg2

theorem zeros2 : (![0, 0] : Fin 2 → Nat) = fun _ => 0 := funext fun a => by fin_cases a <;> rfl
theorem zeros1 : (![0] : Fin 1 → Nat) = fun _ => 0 := funext fun a => by fin_cases a <;> rfl

theorem tile_index : ∀ t : Fin cfg2.N,
    win2_0.index t (0 : Fin 2) = t.val ∧ win2_0.index t (1 : Fin 2) = 0
    ∧ win2_1.index t (0 : Fin 1) = 0 ∧ win2_2.index t (0 : Fin 1) = 0
    ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

theorem tile_onto : ∀ q : Fin 10, ∃ t : Fin cfg2.N, win2_5.index t (0 : Fin 2) = q.val ∧ win2_5.index t (1 : Fin 2) = 0 :=
  (by decide +kernel : ∀ q : Fin 10, ∃ t : Fin grid2.N, win2_5.index t (0 : Fin 2) = q.val ∧ win2_5.index t (1 : Fin 2) = 0)

def normAll (a0 : S10000x128.Idx → EReal) (a1 a2 a3 a4 : S128.Idx → EReal) : S10000x128.Idx → EReal :=
  fun i => max ((a0 i - a1 (ix1 (i 1))) * Ideal.rsqrt (a2 (ix1 (i 1)) + epsBN) * a3 (ix1 (i 1)) + a4 (ix1 (i 1))) 0

theorem tile_at (x0 : Vec Ideal S1000x128 .f32) (x1 x2 x3 x4 : Vec Ideal S128 .f32) (p : Fin 1000) (q : Fin 128) :
    out2_5 x0 x1 x2 x3 x4 (ix2 p q)
      = max ((x0 (ix2 p q) - x1 (ix1 q)) * Ideal.rsqrt (x2 (ix1 q) + epsBN) * x3 (ix1 q) + x4 (ix1 q)) 0 := by
  unfold out2_5
  rw [View.canon_unit_zero zeros2]
  simp only [View.ld_unit_zero (S := S1000x128) zeros2, View.ld_unit_zero (S := S128) zeros1]
  exact pay2_1_at x0 x2 x1 x3 x4 p q

theorem normAll_of_reads (a0 : S10000x128.Idx → EReal) (a1 a2 a3 a4 : S128.Idx → EReal)
    (e0 e5 : S10000x128.Idx) (e1 e2 e3 e4 : S128.Idx)
    (h0 : e0 = e5) (h1 : e1 = ix1 (e5 1)) (h2 : e2 = ix1 (e5 1)) (h3 : e3 = ix1 (e5 1)) (h4 : e4 = ix1 (e5 1)) :
    max ((a0 e0 - a1 e1) * Ideal.rsqrt (a2 e2 + epsBN) * a3 e3 + a4 e4) 0 = normAll a0 a1 a2 a3 a4 e5 := by
  subst h0 h1 h2 h3 h4
  rfl

theorem mem_tile (t : Fin cfg2.N) (i : S10000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v35).slice (win2_5.rect t)).set ↔ _
  rw [View.set_slice_whole, Rect.mem_set_unit]
  exact Iff.rfl

theorem tiles_cover (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht0, ht1⟩ := tile_onto ⟨(i 0).val / 1000, by omega⟩
  have q0 : win2_5.index t (0 : Fin 2) = (i 0).val / 1000 := ht0
  refine ⟨t, flush2_5 t, ?_⟩
  rw [mem_tile]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 128 ≤ (i 1).val ∧ (i 1).val < win2_5.index t (1 : Fin 2) * 128 + 128; omega

section
variable (V : (c : Dev nD) → (b : Ref sig .tc) → Buf (Elt Ideal) ((c : Thread nD τ).loc b))

theorem flushed_eq (c : Dev nD) (t : Fin cfg2.N) :
    (dat2 (F := Ideal) V c).flushed 5 t
      = ((cfg2.win 5).blk t).view.read (Elt Ideal) (normAll (V c main_v26_0) (V c main_v29) (V c main_v34) (V c main_arg9) (V c main_arg10)) := by
  show (cfg2.win 5).cut (grid2.coords t) ((dat2 V c).after 5 t) = _
  rw [after2_5]
  funext y
  obtain ⟨p, q, rfl⟩ : ∃ (p : Fin 1000) (q : Fin 128), y = ix2 p q := ⟨y 0, y 1, eq_ix2 y⟩
  refine (tile_at (iblk2 V c 0 t) (iblk2 V c 1 t) (iblk2 V c 2 t) (iblk2 V c 3 t) (iblk2 V c 4 t) p q).trans ?_
  obtain ⟨e00, e01, e1, e2, e3, e4, e50, e51⟩ := tile_index t
  have h0 : ((cfg2.win 0).blk t).view.emb (ix2 p q) = ((cfg2.win 5).blk t).view.emb (ix2 p q) := by
    funext a; apply Fin.ext
    match a with
    | ⟨0, _⟩ => show win2_0.index t (0 : Fin 2) * 1000 + 1 * p.val = win2_5.index t (0 : Fin 2) * 1000 + 1 * p.val; omega
    | ⟨1, _⟩ => show win2_0.index t (1 : Fin 2) * 128 + 1 * q.val = win2_5.index t (1 : Fin 2) * 128 + 1 * q.val; omega
  have h1 : ((cfg2.win 1).blk t).view.emb (ix1 q) = ix1 ((((cfg2.win 5).blk t).view.emb (ix2 p q)) 1) := by
    funext a; apply Fin.ext
    match a with
    | ⟨0, _⟩ => show win2_1.index t (0 : Fin 1) * 128 + 1 * q.val = win2_5.index t (1 : Fin 2) * 128 + 1 * q.val; omega
  have h2 : ((cfg2.win 2).blk t).view.emb (ix1 q) = ix1 ((((cfg2.win 5).blk t).view.emb (ix2 p q)) 1) := by
    funext a; apply Fin.ext
    match a with
    | ⟨0, _⟩ => show win2_2.index t (0 : Fin 1) * 128 + 1 * q.val = win2_5.index t (1 : Fin 2) * 128 + 1 * q.val; omega
  have h3 : ((cfg2.win 3).blk t).view.emb (ix1 q) = ix1 ((((cfg2.win 5).blk t).view.emb (ix2 p q)) 1) := by
    funext a; apply Fin.ext
    match a with
    | ⟨0, _⟩ => show win2_3.index t (0 : Fin 1) * 128 + 1 * q.val = win2_5.index t (1 : Fin 2) * 128 + 1 * q.val; omega
  have h4 : ((cfg2.win 4).blk t).view.emb (ix1 q) = ix1 ((((cfg2.win 5).blk t).view.emb (ix2 p q)) 1) := by
    funext a; apply Fin.ext
    match a with
    | ⟨0, _⟩ => show win2_4.index t (0 : Fin 1) * 128 + 1 * q.val = win2_5.index t (1 : Fin 2) * 128 + 1 * q.val; omega
  exact normAll_of_reads (V c main_v26_0) (V c main_v29) (V c main_v34) (V c main_arg9) (V c main_arg10) _ _ _ _ _ _ h0 h1 h2 h3 h4

end

end Reg2

section
variable (V : (c : Dev nD) → (b : Ref sig .tc) → Buf (Elt Ideal) ((c : Thread nD τ).loc b))

theorem arrAt2_5 (c : Dev nD) (r : Fin 10000) (j : Fin 128) :
    (dat2 (F := Ideal) V c).arrAt 5 cfg2.N (ix2 r j)
      = max ((at2 (V c main_v26_0) r j - at1 (V c main_v29) j) * Ideal.rsqrt (at1 (V c main_v34) j + epsBN)
          * at1 (V c main_arg9) j + at1 (V c main_arg10) j) 0 :=
  congrFun ((dat2 (F := Ideal) V c).arrAt_eq_of_cover 5
    (Reg2.normAll (V c main_v26_0) (V c main_v29) (V c main_v34) (V c main_arg9) (V c main_arg10))
    (fun t _ => Reg2.flushed_eq V c t) Reg2.tiles_cover) (ix2 r j)

end

end Cert.KernelIdeal.Val

end
-- ==== Proof.Value.Kernel.lean ====
import proofs.«406289_j13400297963801_3_alg».proof.Proof.KernelIdeal.Run3
import proofs.«406289_j13400297963801_3_alg».proof.Proof.KernelIdeal.Args
import proofs.«406289_j13400297963801_3_alg».proof.Proof.Value.Spec
import proofs.«406289_j13400297963801_3_alg».proof.Proof.Value.Host
import proofs.«406289_j13400297963801_3_alg».proof.Proof.Value.Reg0
import proofs.«406289_j13400297963801_3_alg».proof.Proof.Value.Reg1
import proofs.«406289_j13400297963801_3_alg».proof.Proof.Value.Reg2
import Idealize.ShloMosaic.Lib.ValueIdx

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open scoped BigOperators

variable (m : (ℓ : Loc nD τ sig) → Buf (Elt Ideal) ℓ) (c : Dev nD)

abbrev kNode : Fin 10000 → Fin 128 → EReal := at2 (m ((c : Thread nD τ).loc main_arg0))
abbrev kSummed : Fin 10000 → Fin 128 → EReal := at2 (summedK (m ((c : Thread nD τ).loc main_arg0)) (m ((c : Thread nD τ).loc main_arg1)) (m ((c : Thread nD τ).loc main_arg11)) (m ((c : Thread nD τ).loc main_arg12)))
abbrev kDeg : Fin 10000 → EReal := at1 (degK (m ((c : Thread nD τ).loc main_arg12)))
abbrev kEps : EReal := (m ((c : Thread nD τ).loc main_arg2)) (ix1 0)

abbrev kW1 : Fin 128 → Fin 256 → EReal := at2 (m ((c : Thread nD τ).loc main_arg3))
abbrev kb1 : Fin 256 → EReal := at1 (m ((c : Thread nD τ).loc main_arg4))
abbrev kg1 : Fin 256 → EReal := at1 (m ((c : Thread nD τ).loc main_arg5))
abbrev kB1 : Fin 256 → EReal := at1 (m ((c : Thread nD τ).loc main_arg6))
abbrev kW2 : Fin 256 → Fin 128 → EReal := at2 (m ((c : Thread nD τ).loc main_arg7))
abbrev kb2 : Fin 128 → EReal := at1 (m ((c : Thread nD τ).loc main_arg8))
abbrev kg2 : Fin 128 → EReal := at1 (m ((c : Thread nD τ).loc main_arg9))
abbrev kB2 : Fin 128 → EReal := at1 (m ((c : Thread nD τ).loc main_arg10))

theorem V1_summed : at2 (Fr.V1 m c main_v10) = kSummed m c := congrArg at2 (after0_v10 (W0 m c))
theorem V1_deg : (fun r : Fin 10000 => at2 (Fr.V1 m c main_v15) r 0) = kDeg m c := funext fun r => after0_v15 (W0 m c) r
theorem V1_eps : at2 (Fr.V1 m c main_v16) 0 0 = kEps m c := after0_v16 (W0 m c)

theorem X0_launch : X0 (Fr.V1 m) c = hin (kNode m c) (kSummed m c) (kDeg m c) (kEps m c) := by
  unfold X0
  exact congr (congr (congr (congrArg hin (congrArg at2 (W1_kept m c kept0))) (V1_summed m c)) (V1_deg m c)) (V1_eps m c)

theorem H1_launch : H1 (Fr.V1 m) c = h1 (kNode m c) (kSummed m c) (kDeg m c) (kEps m c) (kW1 m c) (kb1 m c) := by
  unfold H1 h1
  exact congr (congr (congrArg lin (X0_launch m c)) (congrArg at2 (W1_kept m c kept3))) (congrArg at1 (W1_kept m c kept4))

theorem W2_rows (r : Fin 10000) (k : Fin 128) : at2 (W2 m c (Proc.devRef .tc main_v17_0)) r k = hin (kNode m c) (kSummed m c) (kDeg m c) (kEps m c) r k :=
  (congrFun (W2_arr m c 6) (ix2 r k)).trans ((arrAt0_6 (Fr.V1 m) c r k).trans (congrFun (congrFun (X0_launch m c) r) k))
theorem W2_sums (j : Fin 256) : at2 (W2 m c (Proc.devRef .tc main_v17_1)) 0 j = colSum (h1 (kNode m c) (kSummed m c) (kDeg m c) (kEps m c) (kW1 m c) (kb1 m c)) j :=
  (congrFun (W2_arr m c 7) (ix2 0 j)).trans ((arrAt0_7 (Fr.V1 m) c j).trans (congrArg (fun h => colSum h j) (H1_launch m c)))
theorem W2_sumsqs (j : Fin 256) : at2 (W2 m c (Proc.devRef .tc main_v17_2)) 0 j = colSumSq (h1 (kNode m c) (kSummed m c) (kDeg m c) (kEps m c) (kW1 m c) (kb1 m c)) j :=
  (congrFun (W2_arr m c 8) (ix2 0 j)).trans ((arrAt0_8 (Fr.V1 m) c j).trans (congrArg (fun h => colSumSq h j) (H1_launch m c)))

theorem V3_rows : at2 (Fr.V3 m c main_v17_0) = hin (kNode m c) (kSummed m c) (kDeg m c) (kEps m c) := funext fun r => funext fun k =>
  (congrFun (W3_keep m c main_v17_0 (by decide)) (ix2 r k)).trans (W2_rows m c r k)
theorem V3_mean : at1 (Fr.V3 m c main_v20) = mean1 (kNode m c) (kSummed m c) (kDeg m c) (kEps m c) (kW1 m c) (kb1 m c) := funext fun j => by
  unfold mean1 meanOf
  exact (after1_v20 (W2 m c) j).trans (congrArg (fun a => Ideal.div a nRows) (W2_sums m c j))
theorem V3_var : at1 (Fr.V3 m c main_v25) = var1M (kNode m c) (kSummed m c) (kDeg m c) (kEps m c) (kW1 m c) (kb1 m c) := funext fun j => by
  unfold var1M varMoments meanOf
  exact (after1_v25 (W2 m c) j).trans
    (congrArg₂ (fun a b => Ideal.div b nRows - Ideal.div a nRows * Ideal.div a nRows) (W2_sums m c j) (W2_sumsqs m c j))

theorem G1_launch : G1 (Fr.V3 m) c = h1 (kNode m c) (kSummed m c) (kDeg m c) (kEps m c) (kW1 m c) (kb1 m c) := by
  unfold G1 h1
  exact congr (congr (congrArg lin (V3_rows m c)) (congrArg at2 (W3_kept m c kept3))) (congrArg at1 (W3_kept m c kept4))

theorem G2_launch : G2 (Fr.V3 m) c = h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c)) := by
  unfold G2 h2
  exact congr (congr (congrArg lin
      (congr (congr (congr (congr (congrArg bnRelu (G1_launch m c)) (V3_mean m c)) (V3_var m c))
        (congrArg at1 (W3_kept m c kept5))) (congrArg at1 (W3_kept m c kept6))))
    (congrArg at2 (W3_kept m c kept7))) (congrArg at1 (W3_kept m c kept8))

theorem V5_rows (r : Fin 10000) (j : Fin 128) : at2 (Fr.V5 m c main_v26_0) r j = (h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c))) r j :=
  (congrFun (W5_keep m c main_v26_0 (by decide)) (ix2 r j)).trans
    ((congrFun (W4_arr m c 9) (ix2 r j)).trans ((arrAt1_9 (Fr.V3 m) c r j).trans (congrFun (congrFun (G2_launch m c) r) j)))
theorem W4_sums (j : Fin 128) : at2 (W4 m c (Proc.devRef .tc main_v26_1)) 0 j = colSum (h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c))) j :=
  (congrFun (W4_arr m c 10) (ix2 0 j)).trans ((arrAt1_10 (Fr.V3 m) c j).trans (congrArg (fun h => colSum h j) (G2_launch m c)))
theorem W4_sumsqs (j : Fin 128) : at2 (W4 m c (Proc.devRef .tc main_v26_2)) 0 j = colSumSq (h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c))) j :=
  (congrFun (W4_arr m c 11) (ix2 0 j)).trans ((arrAt1_11 (Fr.V3 m) c j).trans (congrArg (fun h => colSumSq h j) (G2_launch m c)))

theorem V5_mean (j : Fin 128) : at1 (Fr.V5 m c main_v29) j = meanOf (colSum (h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c)))) j := by
  unfold meanOf
  exact (after2_v29 (W4 m c) j).trans (congrArg (fun a => Ideal.div a nRows) (W4_sums m c j))
theorem V5_var (j : Fin 128) : at1 (Fr.V5 m c main_v34) j = varMoments (colSum (h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c)))) (colSumSq (h2 (kNode m c) (kSummed m c) (kDeg m c) (kEps m c) (kW1 m c) (kb1 m c) (kg1 m c) (kB1 m c) (kW2 m c) (kb2 m c) (var1M (kNode m c) (kSummed m c) (kDeg m c) (kEps m c) (kW1 m c) (kb1 m c)))) j := by
  unfold varMoments meanOf
  exact (after2_v34 (W4 m c) j).trans
    (congrArg₂ (fun a b => Ideal.div b nRows - Ideal.div a nRows * Ideal.div a nRows) (W4_sums m c j) (W4_sumsqs m c j))

theorem normEntry_congr {a a' b b' v v' g g' s s' : EReal} (ha : a = a') (hb : b = b') (hv : v = v') (hg : g = g') (hs : s = s') :
    max ((a - b) * Ideal.rsqrt (v + epsBN) * g + s) 0 = max ((a' - b') * Ideal.rsqrt (v' + epsBN) * g' + s') 0 := by
  subst ha hb hv hg hs; rfl

theorem kernel_value (m : (ℓ : Loc nD τ sig) → Buf (Elt Ideal) ℓ) (c : Dev nD) (r : Fin 10000) (j : Fin 128) :
    W6 (F := Ideal) m c (Proc.devRef .tc main_v35) (ix2 r j)
      = outM (at2 (m ((c : Thread nD τ).loc main_arg0))) (at2 (summedK (m ((c : Thread nD τ).loc main_arg0)) (m ((c : Thread nD τ).loc main_arg1)) (m ((c : Thread nD τ).loc main_arg11)) (m ((c : Thread nD τ).loc main_arg12)))) (at1 (degK (m ((c : Thread nD τ).loc main_arg12)))) ((m ((c : Thread nD τ).loc main_arg2)) (ix1 0))
          (at2 (m ((c : Thread nD τ).loc main_arg3))) (at1 (m ((c : Thread nD τ).loc main_arg4))) (at1 (m ((c : Thread nD τ).loc main_arg5))) (at1 (m ((c : Thread nD τ).loc main_arg6))) (at2 (m ((c : Thread nD τ).loc main_arg7))) (at1 (m ((c : Thread nD τ).loc main_arg8))) (at1 (m ((c : Thread nD τ).loc main_arg9))) (at1 (m ((c : Thread nD τ).loc main_arg10))) r j := by
  refine (congrFun (W6_arr m c 5) (ix2 r j)).trans ((arrAt2_5 (Fr.V5 m) c r j).trans ?_)
  refine (normEntry_congr (V5_rows m c r j) (V5_mean m c j) (V5_var m c j)
    (congrFun (congrArg at1 (W5_kept m c kept9)) j) (congrFun (congrArg at1 (W5_kept m c kept10)) j)).trans ?_
  rfl

end Cert.KernelIdeal.Val

end
-- ==== Proof.Value.Ref.lean ====
import proofs.«406289_j13400297963801_3_alg».proof.Proof.Gen.ReferenceIdeal.Read
import proofs.«406289_j13400297963801_3_alg».proof.Proof.Value.Spec

noncomputable section

namespace Cert.ReferenceIdeal.RefValue

open Cert.ReferenceIdeal Cert.ReferenceIdeal.Read Cert.KernelIdeal.Val Idealize.ShloMosaic Idealize.ShloMosaic.ValueIdx
open scoped BigOperators

theorem rowMajor_scalar (i : S_.Idx) : (S_.rowMajor i).val = 0 := by
  have h : (S_.rowMajor i).val < 1 := lt_of_lt_of_eq (S_.rowMajor i).isLt (Shape.numel_eq_one (fun a => a.elim0))
  omega

theorem v20_at (x2 : (⟨S1, .f32⟩ : BufTy).Contents (Elt Ideal)) (i : S_.Idx) :
    val_main_v20 (F := Ideal) x2 i = x2 (ix1 0) := by
  unfold val_main_v20
  exact shapeCast_apply x2 Facts₀.shapeCasts_S1_S_ i (ix1 0) ((Shape.rowMajor_val_one _).trans (rowMajor_scalar i).symm)

theorem idx_v17_v18 (r : Fin 10000) (k : Fin 128) : idx_main_v17 (idx_main_v18 (ix2 r k)) = ix1 r :=
  funext fun a => Fin.ext (by match a with | ⟨0, _⟩ => rfl)

theorem v24_at (x0 : (⟨S10000x128, .f32⟩ : BufTy).Contents (Elt Ideal)) (x1 : (⟨S640000x128, .f32⟩ : BufTy).Contents (Elt Ideal)) (x2 : (⟨S1, .f32⟩ : BufTy).Contents (Elt Ideal)) (x11 x12 : (⟨S640000, .i32⟩ : BufTy).Contents (Elt Ideal)) (r : Fin 10000) (k : Fin 128) :
    val_main_v24 (F := Ideal) x0 x1 x2 x11 x12 (ix2 r k)
      = hin (at2 x0) (at2 (val_main_v10 (F := Ideal) x0 x1 x11 x12)) (at1 (val_main_v14 (F := Ideal) x12)) (x2 (ix1 0)) r k := by
  rw [val_main_v24_apply, val_main_v23_apply, val_main_v22_apply, val_main_v21_apply, val_main_cst_4_apply, v20_at,
    val_main_v19_apply, val_main_v18_apply, val_main_v17_apply, val_main_v16_apply, val_main_v15_apply, val_main_cst_3_apply,
    idx_v17_v18]
  simp only [Ideal.addf_def, Ideal.mulf_def, Ideal.hostDivf_def, Ideal.maximumf_def, Ideal.ofBits_def]
  rfl

theorem lidx_v25 (r : Fin 10000) (j : Fin 256) (k : Fin 128) : lidx_main_v25 (ix2 r j) k = ix2 r k :=
  funext fun a => Fin.ext (by match a with | ⟨0, _⟩ => rfl | ⟨1, _⟩ => rfl)
theorem ridx_v25 (r : Fin 10000) (j : Fin 256) (k : Fin 128) : ridx_main_v25 (ix2 r j) k = ix2 k j :=
  funext fun a => Fin.ext (by match a with | ⟨0, _⟩ => rfl | ⟨1, _⟩ => rfl)
theorem idx_v26_v27 (r : Fin 10000) (j : Fin 256) : idx_main_v26 (idx_main_v27 (ix2 r j)) = ix1 j :=
  funext fun a => Fin.ext (by match a with | ⟨0, _⟩ => rfl)

theorem v28_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 : (⟨S256, .f32⟩ : BufTy).Contents (Elt Ideal)) (x11 x12 : (⟨S640000, .i32⟩ : BufTy).Contents (Elt Ideal)) (r : Fin 10000) (j : Fin 256) :
    val_main_v28 (F := Ideal) x0 x1 x2 x3 x4 x11 x12 (ix2 r j) = h1 (at2 x0) (at2 (val_main_v10 (F := Ideal) x0 x1 x11 x12)) (at1 (val_main_v14 (F := Ideal) x12)) (x2 (ix1 0)) (at2 x3) (at1 x4) r j := by
  rw [val_main_v28_apply, val_main_v25_apply, val_main_v27_apply, val_main_v26_apply, idx_v26_v27]
  simp only [lidx_v25, ridx_v25, v24_at, Ideal.addf_def]
  rfl

theorem idx_v29 (j : Fin 256) (k : Fin 10000) : idx_main_v29 (ix1 j) k = ix2 k j :=
  funext fun a => Fin.ext (by match a with | ⟨0, _⟩ => rfl | ⟨1, _⟩ => rfl)

theorem v31_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 : (⟨S256, .f32⟩ : BufTy).Contents (Elt Ideal)) (x11 x12 : (⟨S640000, .i32⟩ : BufTy).Contents (Elt Ideal)) (j : Fin 256) :
    val_main_v31 (F := Ideal) x0 x1 x2 x3 x4 x11 x12 (ix1 j) = mean1 (at2 x0) (at2 (val_main_v10 (F := Ideal) x0 x1 x11 x12)) (at1 (val_main_v14 (F := Ideal) x12)) (x2 (ix1 0)) (at2 x3) (at1 x4) j := by
  rw [val_main_v31_apply, val_main_v29_apply, val_main_cst_5_apply, val_main_v30_apply, val_main_cst_6_apply]
  simp only [idx_v29, v28_at, Ideal.hostDivf_def, Ideal.ofBits_def, Ideal.ofBits_zero_f32, zero_add]
  rfl

theorem idx_v32_v33 (r : Fin 10000) (j : Fin 256) : idx_main_v32 (idx_main_v33 (ix2 r j)) = ix1 j :=
  funext fun a => Fin.ext (by match a with | ⟨0, _⟩ => rfl)

theorem v35_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 : (⟨S256, .f32⟩ : BufTy).Contents (Elt Ideal)) (x11 x12 : (⟨S640000, .i32⟩ : BufTy).Contents (Elt Ideal)) (r : Fin 10000) (j : Fin 256) :
    val_main_v35 (F := Ideal) x0 x1 x2 x3 x4 x11 x12 (ix2 r j)
      = (h1 (at2 x0) (at2 (val_main_v10 (F := Ideal) x0 x1 x11 x12)) (at1 (val_main_v14 (F := Ideal) x12)) (x2 (ix1 0)) (at2 x3) (at1 x4) r j - mean1 (at2 x0) (at2 (val_main_v10 (F := Ideal) x0 x1 x11 x12)) (at1 (val_main_v14 (F := Ideal) x12)) (x2 (ix1 0)) (at2 x3) (at1 x4) j) * (h1 (at2 x0) (at2 (val_main_v10 (F := Ideal) x0 x1 x11 x12)) (at1 (val_main_v14 (F := Ideal) x12)) (x2 (ix1 0)) (at2 x3) (at1 x4) r j - mean1 (at2 x0) (at2 (val_main_v10 (F := Ideal) x0 x1 x11 x12)) (at1 (val_main_v14 (F := Ideal) x12)) (x2 (ix1 0)) (at2 x3) (at1 x4) j) := by
  rw [val_main_v35_apply, val_main_v34_apply, val_main_v33_apply, val_main_v32_apply, idx_v32_v33, v28_at, v31_at]
  rfl

theorem idx_v36 (j : Fin 256) (k : Fin 10000) : idx_main_v36 (ix1 j) k = ix2 k j :=
  funext fun a => Fin.ext (by match a with | ⟨0, _⟩ => rfl | ⟨1, _⟩ => rfl)

theorem v38_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 : (⟨S256, .f32⟩ : BufTy).Contents (Elt Ideal)) (x11 x12 : (⟨S640000, .i32⟩ : BufTy).Contents (Elt Ideal)) (j : Fin 256) :
    val_main_v38 (F := Ideal) x0 x1 x2 x3 x4 x11 x12 (ix1 j) = var1D (at2 x0) (at2 (val_main_v10 (F := Ideal) x0 x1 x11 x12)) (at1 (val_main_v14 (F := Ideal) x12)) (x2 (ix1 0)) (at2 x3) (at1 x4) j := by
  rw [val_main_v38_apply, val_main_v36_apply, val_main_cst_7_apply, val_main_v37_apply, val_main_cst_8_apply]
  simp only [idx_v36, v35_at, Ideal.hostDivf_def, Ideal.ofBits_def, Ideal.ofBits_zero_f32, zero_add]
  rfl

theorem idx_v39_v40 (r : Fin 10000) (j : Fin 256) : idx_main_v39 (idx_main_v40 (ix2 r j)) = ix1 j :=
  funext fun a => Fin.ext (by match a with | ⟨0, _⟩ => rfl)
theorem idx_v45_v46 (r : Fin 10000) (j : Fin 256) : idx_main_v45 (idx_main_v46 (ix2 r j)) = ix1 j :=
  funext fun a => Fin.ext (by match a with | ⟨0, _⟩ => rfl)
theorem idx_v48_v49 (r : Fin 10000) (j : Fin 256) : idx_main_v48 (idx_main_v49 (ix2 r j)) = ix1 j :=
  funext fun a => Fin.ext (by match a with | ⟨0, _⟩ => rfl)
theorem idx_v51_v52 (r : Fin 10000) (j : Fin 256) : idx_main_v51 (idx_main_v52 (ix2 r j)) = ix1 j :=
  funext fun a => Fin.ext (by match a with | ⟨0, _⟩ => rfl)

theorem v54_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x11 x12 : (⟨S640000, .i32⟩ : BufTy).Contents (Elt Ideal)) (r : Fin 10000) (j : Fin 256) :
    val_main_v54 (F := Ideal) x0 x1 x2 x3 x4 x5 x6 x11 x12 (ix2 r j)
      = bnRelu (h1 (at2 x0) (at2 (val_main_v10 (F := Ideal) x0 x1 x11 x12)) (at1 (val_main_v14 (F := Ideal) x12)) (x2 (ix1 0)) (at2 x3) (at1 x4)) (mean1 (at2 x0) (at2 (val_main_v10 (F := Ideal) x0 x1 x11 x12)) (at1 (val_main_v14 (F := Ideal) x12)) (x2 (ix1 0)) (at2 x3) (at1 x4)) (var1D (at2 x0) (at2 (val_main_v10 (F := Ideal) x0 x1 x11 x12)) (at1 (val_main_v14 (F := Ideal) x12)) (x2 (ix1 0)) (at2 x3) (at1 x4)) (at1 x5) (at1 x6) r j := by
  rw [val_main_v54_apply, val_main_v53_apply, val_main_v50_apply, val_main_v47_apply, val_main_v41_apply,
    val_main_v40_apply, val_main_v39_apply, idx_v39_v40, val_main_v46_apply, val_main_v45_apply, idx_v45_v46,
    val_main_v44_apply, val_main_v43_apply, val_main_v42_apply, val_main_cst_9_apply,
    val_main_v49_apply, val_main_v48_apply, idx_v48_v49, val_main_v52_apply, val_main_v51_apply, idx_v51_v52,
    val_main_call0_v0_apply, val_main_call0_cst_apply, v28_at, v31_at, v38_at]
  simp only [Ideal.ofBits_def, Ideal.ofBits_zero_f32]
  rfl

theorem lidx_v55 (r : Fin 10000) (j : Fin 128) (k : Fin 256) : lidx_main_v55 (ix2 r j) k = ix2 r k :=
  funext fun a => Fin.ext (by match a with | ⟨0, _⟩ => rfl | ⟨1, _⟩ => rfl)
theorem ridx_v55 (r : Fin 10000) (j : Fin 128) (k : Fin 256) : ridx_main_v55 (ix2 r j) k = ix2 k j :=
  funext fun a => Fin.ext (by match a with | ⟨0, _⟩ => rfl | ⟨1, _⟩ => rfl)
theorem idx_v56_v57 (r : Fin 10000) (j : Fin 128) : idx_main_v56 (idx_main_v57 (ix2 r j)) = ix1 j :=
  funext fun a => Fin.ext (by match a with | ⟨0, _⟩ => rfl)

theorem v58_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x7 : (⟨S256x128, .f32⟩ : BufTy).Contents (Elt Ideal)) (x8 : (⟨S128, .f32⟩ : BufTy).Contents (Elt Ideal)) (x11 x12 : (⟨S640000, .i32⟩ : BufTy).Contents (Elt Ideal)) (r : Fin 10000) (j : Fin 128) :
    val_main_v58 (F := Ideal) x0 x1 x2 x3 x4 x5 x6 x7 x8 x11 x12 (ix2 r j) = h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4)) r j := by
  rw [val_main_v58_apply, val_main_v55_apply, val_main_v57_apply, val_main_v56_apply, idx_v56_v57]
  simp only [lidx_v55, ridx_v55, v54_at, Ideal.addf_def]
  rfl

theorem idx_v59 (j : Fin 128) (k : Fin 10000) : idx_main_v59 (ix1 j) k = ix2 k j :=
  funext fun a => Fin.ext (by match a with | ⟨0, _⟩ => rfl | ⟨1, _⟩ => rfl)

theorem v61_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x7 : (⟨S256x128, .f32⟩ : BufTy).Contents (Elt Ideal)) (x8 : (⟨S128, .f32⟩ : BufTy).Contents (Elt Ideal)) (x11 x12 : (⟨S640000, .i32⟩ : BufTy).Contents (Elt Ideal)) (j : Fin 128) :
    val_main_v61 (F := Ideal) x0 x1 x2 x3 x4 x5 x6 x7 x8 x11 x12 (ix1 j) = meanOf (colSum (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4)))) j := by
  rw [val_main_v61_apply, val_main_v59_apply, val_main_cst_10_apply, val_main_v60_apply, val_main_cst_11_apply]
  simp only [idx_v59, v58_at, Ideal.hostDivf_def, Ideal.ofBits_def, Ideal.ofBits_zero_f32, zero_add]
  rfl

theorem idx_v62_v63 (r : Fin 10000) (j : Fin 128) : idx_main_v62 (idx_main_v63 (ix2 r j)) = ix1 j :=
  funext fun a => Fin.ext (by match a with | ⟨0, _⟩ => rfl)

theorem v65_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x7 : (⟨S256x128, .f32⟩ : BufTy).Contents (Elt Ideal)) (x8 : (⟨S128, .f32⟩ : BufTy).Contents (Elt Ideal)) (x11 x12 : (⟨S640000, .i32⟩ : BufTy).Contents (Elt Ideal)) (r : Fin 10000) (j : Fin 128) :
    val_main_v65 (F := Ideal) x0 x1 x2 x3 x4 x5 x6 x7 x8 x11 x12 (ix2 r j)
      = ((h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))) r j - (meanOf (colSum (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))))) j) * ((h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))) r j - (meanOf (colSum (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))))) j) := by
  rw [val_main_v65_apply, val_main_v64_apply, val_main_v63_apply, val_main_v62_apply, idx_v62_v63, v58_at, v61_at]
  rfl

theorem idx_v66 (j : Fin 128) (k : Fin 10000) : idx_main_v66 (ix1 j) k = ix2 k j :=
  funext fun a => Fin.ext (by match a with | ⟨0, _⟩ => rfl | ⟨1, _⟩ => rfl)

theorem v68_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x7 : (⟨S256x128, .f32⟩ : BufTy).Contents (Elt Ideal)) (x8 : (⟨S128, .f32⟩ : BufTy).Contents (Elt Ideal)) (x11 x12 : (⟨S640000, .i32⟩ : BufTy).Contents (Elt Ideal)) (j : Fin 128) :
    val_main_v68 (F := Ideal) x0 x1 x2 x3 x4 x5 x6 x7 x8 x11 x12 (ix1 j) = varDev (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))) (meanOf (colSum (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))))) j := by
  rw [val_main_v68_apply, val_main_v66_apply, val_main_cst_12_apply, val_main_v67_apply, val_main_cst_13_apply]
  simp only [idx_v66, v65_at, Ideal.hostDivf_def, Ideal.ofBits_def, Ideal.ofBits_zero_f32, zero_add]
  rfl

theorem idx_v69_v70 (r : Fin 10000) (j : Fin 128) : idx_main_v69 (idx_main_v70 (ix2 r j)) = ix1 j :=
  funext fun a => Fin.ext (by match a with | ⟨0, _⟩ => rfl)
theorem idx_v75_v76 (r : Fin 10000) (j : Fin 128) : idx_main_v75 (idx_main_v76 (ix2 r j)) = ix1 j :=
  funext fun a => Fin.ext (by match a with | ⟨0, _⟩ => rfl)
theorem idx_v78_v79 (r : Fin 10000) (j : Fin 128) : idx_main_v78 (idx_main_v79 (ix2 r j)) = ix1 j :=
  funext fun a => Fin.ext (by match a with | ⟨0, _⟩ => rfl)
theorem idx_v81_v82 (r : Fin 10000) (j : Fin 128) : idx_main_v81 (idx_main_v82 (ix2 r j)) = ix1 j :=
  funext fun a => Fin.ext (by match a with | ⟨0, _⟩ => rfl)

theorem v84_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x7 : (⟨S256x128, .f32⟩ : BufTy).Contents (Elt Ideal)) (x8 x9 x10 : (⟨S128, .f32⟩ : BufTy).Contents (Elt Ideal)) (x11 x12 : (⟨S640000, .i32⟩ : BufTy).Contents (Elt Ideal)) (r : Fin 10000) (j : Fin 128) :
    val_main_v84 (F := Ideal) x0 x1 x2 x3 x4 x5 x6 x7 x8 x9 x10 x11 x12 (ix2 r j)
      = bnRelu (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))) (meanOf (colSum (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))))) (varDev (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4))) (meanOf (colSum (h2 (at2 x0) (at2 (val_main_v10 (F := Ideal) x0 x1 x11 x12)) (at1 (val_main_v14 (F := Ideal) x12)) (x2 (ix1 0)) (at2 x3) (at1 x4) (at1 x5) (at1 x6) (at2 x7) (at1 x8) (var1D (at2 x0) (at2 (val_main_v10 (F := Ideal) x0 x1 x11 x12)) (at1 (val_main_v14 (F := Ideal) x12)) (x2 (ix1 0)) (at2 x3) (at1 x4)))))) (at1 x9) (at1 x10) r j := by
  rw [val_main_v84_apply, val_main_v83_apply, val_main_v80_apply, val_main_v77_apply, val_main_v71_apply,
    val_main_v70_apply, val_main_v69_apply, idx_v69_v70, val_main_v76_apply, val_main_v75_apply, idx_v75_v76,
    val_main_v74_apply, val_main_v73_apply, val_main_v72_apply, val_main_cst_14_apply,
    val_main_v79_apply, val_main_v78_apply, idx_v78_v79, val_main_v82_apply, val_main_v81_apply, idx_v81_v82,
    val_main_call1_v0_apply, val_main_call1_cst_apply, v58_at, v61_at, v68_at]
  simp only [Ideal.ofBits_def, Ideal.ofBits_zero_f32]
  rfl

theorem ref_at (x0 : (⟨S10000x128, .f32⟩ : BufTy).Contents (Elt Ideal)) (x1 : (⟨S640000x128, .f32⟩ : BufTy).Contents (Elt Ideal)) (x2 : (⟨S1, .f32⟩ : BufTy).Contents (Elt Ideal)) (x3 : (⟨S128x256, .f32⟩ : BufTy).Contents (Elt Ideal)) (x4 x5 x6 : (⟨S256, .f32⟩ : BufTy).Contents (Elt Ideal)) (x7 : (⟨S256x128, .f32⟩ : BufTy).Contents (Elt Ideal)) (x8 x9 x10 : (⟨S128, .f32⟩ : BufTy).Contents (Elt Ideal)) (x11 x12 : (⟨S640000, .i32⟩ : BufTy).Contents (Elt Ideal)) (r : Fin 10000) (j : Fin 128) :
    val_main_v84 (F := Ideal) x0 x1 x2 x3 x4 x5 x6 x7 x8 x9 x10 x11 x12 (ix2 r j)
      = outD (at2 x0) (at2 (val_main_v10 (F := Ideal) x0 x1 x11 x12)) (at1 (val_main_v14 (F := Ideal) x12)) (x2 (ix1 0)) (at2 x3) (at1 x4) (at1 x5) (at1 x6) (at2 x7) (at1 x8) (at1 x9) (at1 x10) r j := by
  rw [v84_at]
  rfl

end Cert.ReferenceIdeal.RefValue

end
-- ==== Proof.Value.Final.lean ====
import proofs.«406289_j13400297963801_3_alg».proof.Defs
import proofs.«406289_j13400297963801_3_alg».proof.Proof.Gen.KernelIdeal
import proofs.«406289_j13400297963801_3_alg».proof.Proof.Gen.ReferenceIdeal
import proofs.«406289_j13400297963801_3_alg».proof.Proof.Gen.ReferenceIdeal.Run
import proofs.«406289_j13400297963801_3_alg».proof.Proof.Gen.ReferenceIdeal.Read
import proofs.«406289_j13400297963801_3_alg».proof.Proof.Gen.Pre_finite_inputs
import proofs.«406289_j13400297963801_3_alg».proof.Proof.KernelIdeal.Run3
import proofs.«406289_j13400297963801_3_alg».proof.Proof.KernelIdeal.Args
import proofs.«406289_j13400297963801_3_alg».proof.Proof.Value.Spec
import proofs.«406289_j13400297963801_3_alg».proof.Proof.Value.Math
import proofs.«406289_j13400297963801_3_alg».proof.Proof.Value.Host
import proofs.«406289_j13400297963801_3_alg».proof.Proof.Value.Finite
import proofs.«406289_j13400297963801_3_alg».proof.Proof.Value.Kernel
import proofs.«406289_j13400297963801_3_alg».proof.Proof.Value.Ref
import Idealize.ShloMosaic.Lib.ValueIdx

noncomputable section

namespace Cert.Proof.Pieces

open Idealize.ShloMosaic Idealize.ShloMosaic.TcCoe Idealize.SL.Sem Idealize.ShloMosaic.ValueIdx

theorem frame_KI : Cert.frame_KernelIdeal := fun m ρ _ =>
  (θ_run Cert.KernelIdeal.defs _ _).mono
    (fun r h c => ⟨
      (h c _ (Cert.KernelIdeal.Fr.mem_uc Cert.KernelIdeal.main_arg0 (by decide))).trans (Cert.KernelIdeal.Fr.W6_kept m c Cert.KernelIdeal.Fr.kept0),
      (h c _ (Cert.KernelIdeal.Fr.mem_uc Cert.KernelIdeal.main_arg1 (by decide))).trans (Cert.KernelIdeal.Fr.W6_kept m c Cert.KernelIdeal.Fr.kept1),
      (h c _ (Cert.KernelIdeal.Fr.mem_uc Cert.KernelIdeal.main_arg2 (by decide))).trans (Cert.KernelIdeal.Fr.W6_kept m c Cert.KernelIdeal.Fr.kept2),
      (h c _ (Cert.KernelIdeal.Fr.mem_uc Cert.KernelIdeal.main_arg3 (by decide))).trans (Cert.KernelIdeal.Fr.W6_kept m c Cert.KernelIdeal.Fr.kept3),
      (h c _ (Cert.KernelIdeal.Fr.mem_uc Cert.KernelIdeal.main_arg4 (by decide))).trans (Cert.KernelIdeal.Fr.W6_kept m c Cert.KernelIdeal.Fr.kept4),
      (h c _ (Cert.KernelIdeal.Fr.mem_uc Cert.KernelIdeal.main_arg5 (by decide))).trans (Cert.KernelIdeal.Fr.W6_kept m c Cert.KernelIdeal.Fr.kept5),
      (h c _ (Cert.KernelIdeal.Fr.mem_uc Cert.KernelIdeal.main_arg6 (by decide))).trans (Cert.KernelIdeal.Fr.W6_kept m c Cert.KernelIdeal.Fr.kept6),
      (h c _ (Cert.KernelIdeal.Fr.mem_uc Cert.KernelIdeal.main_arg7 (by decide))).trans (Cert.KernelIdeal.Fr.W6_kept m c Cert.KernelIdeal.Fr.kept7),
      (h c _ (Cert.KernelIdeal.Fr.mem_uc Cert.KernelIdeal.main_arg8 (by decide))).trans (Cert.KernelIdeal.Fr.W6_kept m c Cert.KernelIdeal.Fr.kept8),
      (h c _ (Cert.KernelIdeal.Fr.mem_uc Cert.KernelIdeal.main_arg9 (by decide))).trans (Cert.KernelIdeal.Fr.W6_kept m c Cert.KernelIdeal.Fr.kept9),
      (h c _ (Cert.KernelIdeal.Fr.mem_uc Cert.KernelIdeal.main_arg10 (by decide))).trans (Cert.KernelIdeal.Fr.W6_kept m c Cert.KernelIdeal.Fr.kept10),
      (h c _ (Cert.KernelIdeal.Fr.mem_uc Cert.KernelIdeal.main_arg11 (by decide))).trans (Cert.KernelIdeal.Fr.W6_kept m c Cert.KernelIdeal.Fr.kept11),
      (h c _ (Cert.KernelIdeal.Fr.mem_uc Cert.KernelIdeal.main_arg12 (by decide))).trans (Cert.KernelIdeal.Fr.W6_kept m c Cert.KernelIdeal.Fr.kept12)⟩)
    (Cert.KernelIdeal.Fr.run_all (F := Ideal) m ρ)

theorem frame_RI : Cert.frame_ReferenceIdeal := fun m ρ _ =>
  (θ_run Cert.ReferenceIdeal.defs _ _).mono (fun _ h c => (h c).2) (Cert.ReferenceIdeal.Value.run (F := Ideal) m ρ)

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v84 m' c = Cert.KernelIdeal.Fr.W6 (F := Ideal) m c (Proc.devRef .tc Cert.KernelIdeal.main_v35) := by
  obtain ⟨a0, a1, a2, a3, a4, a5, a6, a7, a8, a9, a10, a11, a12⟩ := hagree
  obtain ⟨p0, p1, p2, p3, p4, p5, p6, p7, p8, p9, p10⟩ := Cert.KernelIdeal.Val.pre_real m hpre c
  rw [Cert.ReferenceIdeal.Read.val_main_v84_eq, a0, a1, a2, a3, a4, a5, a6, a7, a8, a9, a10, a11, a12]
  funext i
  obtain ⟨r, j, rfl⟩ : ∃ (r : Fin 10000) (j : Fin 128), i = ix2 r j := ⟨i 0, i 1, eq_ix2 i⟩
  rw [Cert.ReferenceIdeal.RefValue.ref_at, ← Cert.KernelIdeal.Val.summedK_eq_ref, ← Cert.KernelIdeal.Val.degK_eq_ref, Cert.KernelIdeal.Val.kernel_value]
  exact (congrFun (congrFun (Cert.KernelIdeal.Val.outM_eq_outD _ _ _ _ _ _ _ _ _ _ _ _
    (fun r k => p0 (ix2 r k)) (fun r k => Cert.KernelIdeal.Val.summedK_real _ _ _ _ p0 p1 (ix2 r k)) (fun r => Cert.KernelIdeal.Val.degK_real _ (ix1 r)) (p2 (ix1 0))
    (fun k j => p3 (ix2 k j)) (fun j => p4 (ix1 j)) (fun j => p5 (ix1 j)) (fun j => p6 (ix1 j))
    (fun k j => p7 (ix2 k j)) (fun j => p8 (ix1 j)) (fun j => p9 (ix1 j)) (fun j => p10 (ix1 j))) r) j).symm

theorem algebraic : Cert.algebraic_KernelIdeal_ReferenceIdeal := by
  intro m ρ m' ρ' hpre hagree
  refine ⟨fun c => Cert.KernelIdeal.Fr.W6 (F := Ideal) m c (Proc.devRef .tc Cert.KernelIdeal.main_v35), ?_, ?_⟩
  · exact (θ_run Cert.KernelIdeal.defs _ _).mono
      (fun r h c => ⟨h c _ (Cert.KernelIdeal.Fr.mem_uc Cert.KernelIdeal.main_v35 (by decide)),
        (h c _ (Cert.KernelIdeal.Fr.mem_uc Cert.KernelIdeal.main_arg0 (by decide))).trans (Cert.KernelIdeal.Fr.W6_kept m c Cert.KernelIdeal.Fr.kept0),
        (h c _ (Cert.KernelIdeal.Fr.mem_uc Cert.KernelIdeal.main_arg1 (by decide))).trans (Cert.KernelIdeal.Fr.W6_kept m c Cert.KernelIdeal.Fr.kept1),
        (h c _ (Cert.KernelIdeal.Fr.mem_uc Cert.KernelIdeal.main_arg2 (by decide))).trans (Cert.KernelIdeal.Fr.W6_kept m c Cert.KernelIdeal.Fr.kept2),
        (h c _ (Cert.KernelIdeal.Fr.mem_uc Cert.KernelIdeal.main_arg3 (by decide))).trans (Cert.KernelIdeal.Fr.W6_kept m c Cert.KernelIdeal.Fr.kept3),
        (h c _ (Cert.KernelIdeal.Fr.mem_uc Cert.KernelIdeal.main_arg4 (by decide))).trans (Cert.KernelIdeal.Fr.W6_kept m c Cert.KernelIdeal.Fr.kept4),
        (h c _ (Cert.KernelIdeal.Fr.mem_uc Cert.KernelIdeal.main_arg5 (by decide))).trans (Cert.KernelIdeal.Fr.W6_kept m c Cert.KernelIdeal.Fr.kept5),
        (h c _ (Cert.KernelIdeal.Fr.mem_uc Cert.KernelIdeal.main_arg6 (by decide))).trans (Cert.KernelIdeal.Fr.W6_kept m c Cert.KernelIdeal.Fr.kept6),
        (h c _ (Cert.KernelIdeal.Fr.mem_uc Cert.KernelIdeal.main_arg7 (by decide))).trans (Cert.KernelIdeal.Fr.W6_kept m c Cert.KernelIdeal.Fr.kept7),
        (h c _ (Cert.KernelIdeal.Fr.mem_uc Cert.KernelIdeal.main_arg8 (by decide))).trans (Cert.KernelIdeal.Fr.W6_kept m c Cert.KernelIdeal.Fr.kept8),
        (h c _ (Cert.KernelIdeal.Fr.mem_uc Cert.KernelIdeal.main_arg9 (by decide))).trans (Cert.KernelIdeal.Fr.W6_kept m c Cert.KernelIdeal.Fr.kept9),
        (h c _ (Cert.KernelIdeal.Fr.mem_uc Cert.KernelIdeal.main_arg10 (by decide))).trans (Cert.KernelIdeal.Fr.W6_kept m c Cert.KernelIdeal.Fr.kept10),
        (h c _ (Cert.KernelIdeal.Fr.mem_uc Cert.KernelIdeal.main_arg11 (by decide))).trans (Cert.KernelIdeal.Fr.W6_kept m c Cert.KernelIdeal.Fr.kept11),
        (h c _ (Cert.KernelIdeal.Fr.mem_uc Cert.KernelIdeal.main_arg12 (by decide))).trans (Cert.KernelIdeal.Fr.W6_kept m c Cert.KernelIdeal.Fr.kept12)⟩)
      (Cert.KernelIdeal.Fr.run_all (F := Ideal) m ρ)
  · exact (θ_run Cert.ReferenceIdeal.defs _ _).mono
      (fun _ h c => ⟨(h c).1.trans (result_eq m m' hpre c (hagree c)), (h c).2⟩)
      (Cert.ReferenceIdeal.Value.run (F := Ideal) m' ρ')

end Cert.Proof.Pieces

end
-- ==== Proof.lean ====
/-
  A graph layer on 10000 nodes: each node's row plus the mean of its incoming messages, then twice an affine map
  normalised column by column over all rows and clipped below at zero. The kernel program writes each column's
  variance as the mean of the squares less the squared mean, the reference as the mean of the squared deviations;
  the two agree where every entry is a real number (Value/Math.lean, `varMoments_eq_varDev`), which the precondition gives
  (Value/Finite.lean); every other step of the two programs is the same arithmetic.
-/
import proofs.«406289_j13400297963801_3_alg».proof.Defs
import proofs.«406289_j13400297963801_3_alg».proof.Proof.Gen.Kernel
import proofs.«406289_j13400297963801_3_alg».proof.Proof.Gen.KernelIdeal
import proofs.«406289_j13400297963801_3_alg».proof.Proof.Gen.ReferenceIdeal
import proofs.«406289_j13400297963801_3_alg».proof.Proof.Gen.Pre_finite_inputs
import proofs.«406289_j13400297963801_3_alg».proof.Proof.Kernel.Run3
import proofs.«406289_j13400297963801_3_alg».proof.Proof.Kernel.Args
import proofs.«406289_j13400297963801_3_alg».proof.Proof.Value.Final

noncomputable section

namespace Cert.Proof

open Idealize.ShloMosaic Idealize.ShloMosaic.TcCoe Idealize.SL.Sem

theorem frame_K : Cert.frame_Kernel := fun m ρ _ =>
  (θ_run Cert.Kernel.defs _ _).mono
    (fun r h c => ⟨
      (h c _ (Cert.Kernel.Fr.mem_uc Cert.Kernel.main_arg0 (by decide))).trans (Cert.Kernel.Fr.W6_kept m c Cert.Kernel.Fr.kept0),
      (h c _ (Cert.Kernel.Fr.mem_uc Cert.Kernel.main_arg1 (by decide))).trans (Cert.Kernel.Fr.W6_kept m c Cert.Kernel.Fr.kept1),
      (h c _ (Cert.Kernel.Fr.mem_uc Cert.Kernel.main_arg2 (by decide))).trans (Cert.Kernel.Fr.W6_kept m c Cert.Kernel.Fr.kept2),
      (h c _ (Cert.Kernel.Fr.mem_uc Cert.Kernel.main_arg3 (by decide))).trans (Cert.Kernel.Fr.W6_kept m c Cert.Kernel.Fr.kept3),
      (h c _ (Cert.Kernel.Fr.mem_uc Cert.Kernel.main_arg4 (by decide))).trans (Cert.Kernel.Fr.W6_kept m c Cert.Kernel.Fr.kept4),
      (h c _ (Cert.Kernel.Fr.mem_uc Cert.Kernel.main_arg5 (by decide))).trans (Cert.Kernel.Fr.W6_kept m c Cert.Kernel.Fr.kept5),
      (h c _ (Cert.Kernel.Fr.mem_uc Cert.Kernel.main_arg6 (by decide))).trans (Cert.Kernel.Fr.W6_kept m c Cert.Kernel.Fr.kept6),
      (h c _ (Cert.Kernel.Fr.mem_uc Cert.Kernel.main_arg7 (by decide))).trans (Cert.Kernel.Fr.W6_kept m c Cert.Kernel.Fr.kept7),
      (h c _ (Cert.Kernel.Fr.mem_uc Cert.Kernel.main_arg8 (by decide))).trans (Cert.Kernel.Fr.W6_kept m c Cert.Kernel.Fr.kept8),
      (h c _ (Cert.Kernel.Fr.mem_uc Cert.Kernel.main_arg9 (by decide))).trans (Cert.Kernel.Fr.W6_kept m c Cert.Kernel.Fr.kept9),
      (h c _ (Cert.Kernel.Fr.mem_uc Cert.Kernel.main_arg10 (by decide))).trans (Cert.Kernel.Fr.W6_kept m c Cert.Kernel.Fr.kept10),
      (h c _ (Cert.Kernel.Fr.mem_uc Cert.Kernel.main_arg11 (by decide))).trans (Cert.Kernel.Fr.W6_kept m c Cert.Kernel.Fr.kept11),
      (h c _ (Cert.Kernel.Fr.mem_uc Cert.Kernel.main_arg12 (by decide))).trans (Cert.Kernel.Fr.W6_kept m c Cert.Kernel.Fr.kept12)⟩)
    (Cert.Kernel.Fr.run_all (F := Bits) m ρ)

theorem claim : Cert.Claim := ⟨Cert.Kernel.Gen.facts, Cert.KernelIdeal.Gen.facts, Cert.ReferenceIdeal.Gen.facts,
  Cert.Pre_finite_inputs.Gen.facts, frame_K, Pieces.frame_KI, Pieces.frame_RI, trivial, Pieces.algebraic⟩

end Cert.Proof

end
